-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x4096x1024 .f32) (main_arg1 : FVec F S1024x1024 .f32) (main_arg2 : FVec F S1024x1024 .f32) (main_arg3 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x4096x1024 : Shape := ⟨3, ![4, 4096, 1024]⟩
abbrev S1024x1024 : Shape := ⟨2, ![1024, 1024]⟩
abbrev S2x18 : Shape := ⟨2, ![2, 18]⟩
abbrev S16384x1024 : Shape := ⟨2, ![16384, 1024]⟩
abbrev S3072x1024 : Shape := ⟨2, ![3072, 1024]⟩
abbrev S1024x3072 : Shape := ⟨2, ![1024, 3072]⟩
abbrev S512x1024 : Shape := ⟨2, ![512, 1024]⟩
abbrev S512x3072 : Shape := ⟨2, ![512, 3072]⟩
abbrev S1x512x1024 : Shape := ⟨3, ![1, 512, 1024]⟩
abbrev S1x1 : Shape := ⟨2, ![1, 1]⟩
abbrev S1x512x1 : Shape := ⟨3, ![1, 512, 1]⟩
abbrev S1x512x512 : Shape := ⟨3, ![1, 512, 512]⟩
abbrev S1x512 : Shape := ⟨2, ![1, 512]⟩

abbrev nBuf : Space → Nat
  | .hbm => 16
  | .vmem => 20
  | .smem => 2
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x4096x1024, .bf16⟩
  | .hbm, ⟨5, _⟩ => ⟨S16384x1024, .bf16⟩
  | .hbm, ⟨6, _⟩ => ⟨S3072x1024, .f32⟩
  | .hbm, ⟨7, _⟩ => ⟨S1024x3072, .f32⟩
  | .hbm, ⟨8, _⟩ => ⟨S1024x3072, .bf16⟩
  | .hbm, ⟨9, _⟩ => ⟨S16384x1024, .bf16⟩
  | .hbm, ⟨10, _⟩ => ⟨S16384x1024, .bf16⟩
  | .hbm, ⟨11, _⟩ => ⟨S16384x1024, .bf16⟩
  | .hbm, ⟨12, _⟩ => ⟨S4x4096x1024, .bf16⟩
  | .hbm, ⟨13, _⟩ => ⟨S4x4096x1024, .bf16⟩
  | .hbm, ⟨14, _⟩ => ⟨S4x4096x1024, .bf16⟩
  | .hbm, ⟨15, _⟩ => ⟨S4x4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .f32⟩
  | .local _ .vmem, ⟨16, _⟩ => ⟨S1x512x1024, .f32⟩
  | .local _ .vmem, ⟨17, _⟩ => ⟨S1x512x1, .f32⟩
  | .local _ .vmem, ⟨18, _⟩ => ⟨S1x512x1, .f32⟩
  | .local _ .vmem, ⟨19, _⟩ => ⟨S1x512x1024, .f32⟩
  | .local _ .smem, ⟨0, _⟩ => ⟨S2x18, .i32⟩
  | .local _ .smem, ⟨1, _⟩ => ⟨S2x18, .i32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![2, 4, 18], ![false, false, false]⟩

abbrev pre1 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 2 → Nat :=
  let arg0 : BitVec 32 := BitVec.ofNat 32 (i 0).val
  let v0 : Index := Scalar.indexCast arg0
  let arg2 : BitVec 32 := BitVec.ofNat 32 (i 2).val
  let v1 : Index := Scalar.indexCast arg2
  ![v0.toNat, v1.toNat]
def k1_cond4 (v2 : BitVec 32) (v5 : BitVec 32) : BitVec 1 :=
  let v22 : BitVec 1 := Scalar.cmpi .eq v5 v2
  let v23 : BitVec 32 := Scalar.extui v22
  let c0_i32_9 : BitVec 32 := 0#32
  let v24 : BitVec 1 := Scalar.cmpi .ne v23 c0_i32_9
  v24

def cc1_transform_0 (k1_off1_inb : ∀ i : grid1.Coords, ∀ a, (k1_off1 i) a + S1x1.size a ≤ S2x18.size a) (numel1_S1x1 : S1x1.numel = 1) (pf : pre1.Contents (Elt F)) (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : Index := Scalar.indexCast arg2
  let v2 : BitVec 32 := pf.at 0 (Rect.unit (s := S2x18) ![v0.toNat, v1.toNat] S1x1.size (k1_off1_inb i)) numel1_S1x1
  let c0_i32 : BitVec 32 := 0#32
  let c0_i32_0 : BitVec 32 := 0#32
  ![arg1.toNat, v2.toNat, c0_i32.toNat]

def cc1_transform_1 (k1_off1_inb : ∀ i : grid1.Coords, ∀ a, (k1_off1 i) a + S1x1.size a ≤ S2x18.size a) (numel1_S1x1 : S1x1.numel = 1) (pf : pre1.Contents (Elt F)) (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : Index := Scalar.indexCast arg2
  let v2 : BitVec 32 := pf.at 1 (Rect.unit (s := S2x18) ![v0.toNat, v1.toNat] S1x1.size (k1_off1_inb i)) numel1_S1x1
  let c0_i32 : BitVec 32 := 0#32
  let c0_i32_0 : BitVec 32 := 0#32
  ![arg1.toNat, v2.toNat, c0_i32.toNat]

def cc1_transform_2 (k1_off1_inb : ∀ i : grid1.Coords, ∀ a, (k1_off1 i) a + S1x1.size a ≤ S2x18.size a) (numel1_S1x1 : S1x1.numel = 1) (pf : pre1.Contents (Elt F)) (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : Index := Scalar.indexCast arg2
  let v2 : BitVec 32 := pf.at 1 (Rect.unit (s := S2x18) ![v0.toNat, v1.toNat] S1x1.size (k1_off1_inb i)) numel1_S1x1
  let c0_i32 : BitVec 32 := 0#32
  let c0_i32_0 : BitVec 32 := 0#32
  ![arg1.toNat, v2.toNat, c0_i32.toNat]

def cc1_transform_3 (k1_off1_inb : ∀ i : grid1.Coords, ∀ a, (k1_off1 i) a + S1x1.size a ≤ S2x18.size a) (numel1_S1x1 : S1x1.numel = 1) (pf : pre1.Contents (Elt F)) (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : Index := Scalar.indexCast arg2
  let v2 : BitVec 32 := pf.at 0 (Rect.unit (s := S2x18) ![v0.toNat, v1.toNat] S1x1.size (k1_off1_inb i)) numel1_S1x1
  let c0_i32 : BitVec 32 := 0#32
  let c0_i32_0 : BitVec 32 := 0#32
  ![arg1.toNat, v2.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

class Facts₀ : Prop where
  bitsLt_bf16_f32 : FTy.bits .bf16 < FTy.bits .f32
  shapeCasts_S4x4096x1024_S16384x1024 : S4x4096x1024.ShapeCasts S16384x1024
  concatenates_S1024x1024_S1024x1024_S1024x1024_S3072x1024_d0 : Shape.Concatenates [S1024x1024, S1024x1024, S1024x1024] S3072x1024 0
  transposes_S3072x1024_S1024x3072_1_0 : S3072x1024.Transposes [1, 0] S1024x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  slices_S512x3072_o0_0_S512x1024 : S512x3072.Slices ![0, 0] S512x1024
  packedbf16_S512x1024_S512x1024_0_0 : (Rect.unit (s := S512x1024) ![0, 0] S512x1024.size inb_S512x1024_S512x1024_0_0).PackedRows (EltTy.packing .bf16)
  slices_S512x3072_o0_1024_S512x1024 : S512x3072.Slices ![0, 1024] S512x1024
  slices_S512x3072_o0_2048_S512x1024 : S512x3072.Slices ![0, 2048] S512x1024
  shapeCasts_S16384x1024_S4x4096x1024 : S16384x1024.ShapeCasts S4x4096x1024
  numel1_S1x1 : S1x1.numel = 1
  inb_S1x512x1_S1x512x1_0_0_0 : ∀ a, (![0, 0, 0] : Fin 3 → Nat) a + S1x512x1.size a ≤ S1x512x1.size a
  h_S1x512x1 : 0 < S1x512x1.numel
  shapeCasts_S1x512x1_S1x512x1 : S1x512x1.ShapeCasts S1x512x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S1x512x1024 : S1x512x1024.ShapeCasts S1x512x1024
  iota_S1x512x512_d1_w32 : S1x512x512.Iotas .tc 32 [1]
  iota_S1x512x512_d2_w32 : S1x512x512.Iotas .tc 32 [2]
  reduces_S1x512x512_S1x512 : S1x512x512.Reduces [2] S1x512
  shapeCasts_S1x512_S1x512x1 : S1x512.ShapeCasts S1x512x1
  broadcasts_S1x512x1_S1x512x512 : S1x512x1.Broadcasts S1x512x512
  broadcasts_S1x512x1_S1x512x1024 : S1x512x1.Broadcasts S1x512x1024
  dot_S512x1024_S1024x3072_S512x3072_1_0_0_1_n_n_wf : DotDims.WF S512x1024 S1024x3072 S512x3072 [1] [0] [0] [1] [] []
  dot_S1x512x1024_S1x512x1024_S1x512x512_2_2_1_1_0_0_wf : DotDims.WF S1x512x1024 S1x512x1024 S1x512x512 [2] [2] [1] [1] [0] [0]
  dot_S1x512x512_S1x512x1024_S1x512x1024_2_1_1_2_0_0_wf : DotDims.WF S1x512x512 S1x512x1024 S1x512x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .bf16 = 32 ∨ (Rect.block (s := S16384x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .bf16 = 32 ∨ (Rect.block (s := S16384x1024) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x1024.size a
  hwx0_3 : ∀ i : grid0.Coords, EltTy.bits .bf16 = 32 ∨ (Rect.block (s := S16384x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S16384x1024.size a
  hwx0_4 : ∀ i : grid0.Coords, EltTy.bits .bf16 = 32 ∨ (Rect.block (s := S16384x1024) S512x1024.size (cc0_transform_4 i) (hinb0_4 i)).WholeWords (EltTy.packing .bf16)
  hrank1 : 0 < grid1.rank
  k1_off1_inb : ∀ i : grid1.Coords, ∀ a, (k1_off1 i) a + S1x1.size a ≤ S2x18.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1x1 pf i = cc1_transform_0 k1_off1_inb numel1_S1x1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1x1 pf i = cc1_transform_1 k1_off1_inb numel1_S1x1 pf i'
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 k1_off1_inb numel1_S1x1 pf i = cc1_transform_2 k1_off1_inb numel1_S1x1 pf i'
  hstage1_3 : ∀ j, (stage1_3 j).IsWhole
  nbuf1_3 : grid1.bufCount reads1_3 false = 2
  hreads1_3 : ∀ {F : FTy → Type} [FloatOps F] (pf : pre1.Contents (Elt F)) (i i' : grid1.Coords), (∀ a, reads1_3 a = true → i a = i' a) → cc1_transform_3 k1_off1_inb numel1_S1x1 pf i = cc1_transform_3 k1_off1_inb numel1_S1x1 pf i'

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S1x512x1024_S1x512x1024_S1x512x512_2_2_1_1_0_0 : DotDims S1x512x1024 S1x512x1024 S1x512x512 where
  lhsContracting := [2]
  rhsContracting := [2]
  lhsNonContracting := [1]
  rhsNonContracting := [1]
  lhsBatch := [0]
  rhsBatch := [0]
  wf := dot_S1x512x1024_S1x512x1024_S1x512x512_2_2_1_1_0_0_wf
def dot_S1x512x512_S1x512x1024_S1x512x1024_2_1_1_2_0_0 : DotDims S1x512x512 S1x512x1024 S1x512x1024 where
  lhsContracting := [2]
  rhsContracting := [1]
  lhsNonContracting := [1]
  rhsNonContracting := [2]
  lhsBatch := [0]
  rhsBatch := [0]
  wf := dot_S1x512x512_S1x512x1024_S1x512x1024_2_1_1_2_0_0_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5_0) S512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5_1) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_2) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev spec1_0 : Pipeline.WinSpec sig grid1.rank :=
  Pipeline.WinSpec.ofSpec (Memref.whole main_v6) S1x512x1024.size reads1_0 false false 2 stage1_0 sem1_0 nbuf1_0 hstage1_0

abbrev spec1_1 : Pipeline.WinSpec sig grid1.rank :=
  Pipeline.WinSpec.ofSpec (Memref.whole main_v7) S1x512x1024.size reads1_1 false false 2 stage1_1 sem1_1 nbuf1_1 hstage1_1

abbrev spec1_2 : Pipeline.WinSpec sig grid1.rank :=
  Pipeline.WinSpec.ofSpec (Memref.whole main_v8) S1x512x1024.size reads1_2 false false 2 stage1_2 sem1_2 nbuf1_2 hstage1_2

abbrev spec1_3 : Pipeline.WinSpec sig grid1.rank :=
  Pipeline.WinSpec.ofSpec (Memref.whole main_v9) S1x512x1024.size reads1_3 true false 2 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 k1_off1_inb numel1_S1x1 pf | 1 => cc1_transform_1 k1_off1_inb numel1_S1x1 pf | 2 => cc1_transform_2 k1_off1_inb numel1_S1x1 pf | 3 => cc1_transform_3 k1_off1_inb numel1_S1x1 pf | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 pf | 3 => hreads1_3 pf | ⟨_ + 4, h⟩ => absurd h (Nat.not_lt.2 (Nat.le_add_left _ _))
def ok1 (pf : pre1.Contents (Elt F)) : Prop :=
  (∀ i : grid1.Coords, ∃ h : (∀ a, (cc1_transform_0 k1_off1_inb numel1_S1x1 pf i a + 1) * S1x512x1024.size a ≤ S4x4096x1024.size a), EltTy.bits .bf16 = 32 ∨ (Rect.block (s := S4x4096x1024) S1x512x1024.size (cc1_transform_0 k1_off1_inb numel1_S1x1 pf i) h).WholeWords (EltTy.packing .bf16)) ∧
  (∀ i : grid1.Coords, ∃ h : (∀ a, (cc1_transform_1 k1_off1_inb numel1_S1x1 pf i a + 1) * S1x512x1024.size a ≤ S4x4096x1024.size a), EltTy.bits .bf16 = 32 ∨ (Rect.block (s := S4x4096x1024) S1x512x1024.size (cc1_transform_1 k1_off1_inb numel1_S1x1 pf i) h).WholeWords (EltTy.packing .bf16)) ∧
  (∀ i : grid1.Coords, ∃ h : (∀ a, (cc1_transform_2 k1_off1_inb numel1_S1x1 pf i a + 1) * S1x512x1024.size a ≤ S4x4096x1024.size a), EltTy.bits .bf16 = 32 ∨ (Rect.block (s := S4x4096x1024) S1x512x1024.size (cc1_transform_2 k1_off1_inb numel1_S1x1 pf i) h).WholeWords (EltTy.packing .bf16)) ∧
  (∀ i : grid1.Coords, ∃ h : (∀ a, (cc1_transform_3 k1_off1_inb numel1_S1x1 pf i a + 1) * S1x512x1024.size a ≤ S4x4096x1024.size a), EltTy.bits .f32 = 32 ∨ (Rect.block (s := S4x4096x1024) S1x512x1024.size (cc1_transform_3 k1_off1_inb numel1_S1x1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))
abbrev idle1 (pf : pre1.Contents (Elt F)) : Fin 4 → grid1.Coords → Bool := fun | 0 => fun _ => false | 1 => fun _ => false | 2 => fun _ => false | 3 => fun i => !(k1_cond4 (pf.atD 0 (k1_off1 i)) (pf.atD 1 (k1_off1 i)) == 1#1) | ⟨_ + 4, h⟩ => absurd h (Nat.not_lt.2 (Nat.le_add_left _ _))

class Facts : Prop extends Facts₀ where
  harr1 : ∀ w, (spec1 w).arr.IsWhole

variable [Facts]
-- ==== ReferenceIdeal.lean ====
abbrev S4x4096x1024 : Shape := ⟨3, ![4, 4096, 1024]⟩
abbrev S1024x1024 : Shape := ⟨2, ![1024, 1024]⟩
abbrev S4x4096x4096 : Shape := ⟨3, ![4, 4096, 4096]⟩
abbrev S_ : Shape := ⟨0, ![]⟩
abbrev S4096x4096 : Shape := ⟨2, ![4096, 4096]⟩
abbrev S4x4096 : Shape := ⟨2, ![4, 4096]⟩
abbrev S4x4096x1 : Shape := ⟨3, ![4, 4096, 1]⟩

abbrev nBuf : Space → Nat
  | .hbm => 50
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x4096x1024, .f32⟩
  | .hbm, ⟨5, _⟩ => ⟨S4x4096x1024, .f32⟩
  | .hbm, ⟨6, _⟩ => ⟨S4x4096x1024, .f32⟩
  | .hbm, ⟨7, _⟩ => ⟨S4x4096x4096, .f32⟩
  | .hbm, ⟨8, _⟩ => ⟨S_, .f32⟩
  | .hbm, ⟨9, _⟩ => ⟨S_, .f32⟩
  | .hbm, ⟨10, _⟩ => ⟨S4x4096x4096, .f32⟩
  | .hbm, ⟨11, _⟩ => ⟨S4x4096x4096, .f32⟩
  | .hbm, ⟨12, _⟩ => ⟨S_, .i1⟩
  | .hbm, ⟨13, _⟩ => ⟨S4096x4096, .i1⟩
  | .hbm, ⟨14, _⟩ => ⟨S4096x4096, .i32⟩
  | .hbm, ⟨15, _⟩ => ⟨S_, .i32⟩
  | .hbm, ⟨16, _⟩ => ⟨S4096x4096, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S_, .i1⟩
  | .hbm, ⟨21, _⟩ => ⟨S4096x4096, .i1⟩
  | .hbm, ⟨22, _⟩ => ⟨S4096x4096, .i1⟩
  | .hbm, ⟨23, _⟩ => ⟨S_, .f32⟩
  | .hbm, ⟨24, _⟩ => ⟨S_, .f32⟩
  | .hbm, ⟨25, _⟩ => ⟨S4x4096x4096, .i1⟩
  | .hbm, ⟨26, _⟩ => ⟨S4x4096x4096, .f32⟩
  | .hbm, ⟨27, _⟩ => ⟨S4x4096x4096, .f32⟩
  | .hbm, ⟨28, _⟩ => ⟨S_, .f32⟩
  | .hbm, ⟨29, _⟩ => ⟨S4x4096, .f32⟩
  | .hbm, ⟨30, _⟩ => ⟨S_, .f32⟩
  | .hbm, ⟨31, _⟩ => ⟨S4x4096, .f32⟩
  | .hbm, ⟨32, _⟩ => ⟨S4x4096, .f32⟩
  | .hbm, ⟨33, _⟩ => ⟨S4x4096x1, .f32⟩
  | .hbm, ⟨34, _⟩ => ⟨S4x4096x4096, .f32⟩
  | .hbm, ⟨35, _⟩ => ⟨S4x4096x4096, .f32⟩
  | .hbm, ⟨36, _⟩ => ⟨S4x4096x4096, .f32⟩
  | .hbm, ⟨37, _⟩ => ⟨S_, .f32⟩
  | .hbm, ⟨38, _⟩ => ⟨S4x4096, .f32⟩
  | .hbm, ⟨39, _⟩ => ⟨S4x4096x1, .f32⟩
  | .hbm, ⟨40, _⟩ => ⟨S4x4096x4096, .f32⟩
  | .hbm, ⟨41, _⟩ => ⟨S4x4096x4096, .f32⟩
  | .hbm, ⟨42, _⟩ => ⟨S4x4096x1024, .f32⟩
  | .hbm, ⟨43, _⟩ => ⟨S_, .f32⟩
  | .hbm, ⟨44, _⟩ => ⟨S4x4096x1024, .f32⟩
  | .hbm, ⟨45, _⟩ => ⟨S4x4096x1024, .f32⟩
  | .hbm, ⟨46, _⟩ => ⟨S4x4096x1024, .f32⟩
  | .hbm, ⟨47, _⟩ => ⟨S_, .f32⟩
  | .hbm, ⟨48, _⟩ => ⟨S4x4096x1024, .f32⟩
  | .hbm, ⟨49, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_0 : Ref sig .tc := ⟨.hbm, 20, rfl⟩
abbrev main_call0_v5 : Ref sig .tc := ⟨.hbm, 21, rfl⟩
abbrev main_v8 : Ref sig .tc := ⟨.hbm, 22, rfl⟩
abbrev main_cst_0 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_call2_cst : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_cst_0 : Ref sig .tc := ⟨.hbm, 47, rfl⟩
abbrev main_call2_v3 : Ref sig .tc := ⟨.hbm, 48, rfl⟩
abbrev main_v22 : Ref sig .tc := ⟨.hbm, 49, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  bcast_S_S4096x4096 : S_.BroadcastsInDim S4096x4096 (![] : Fin 0 → Fin S4096x4096.rank)
  bcast_S4096x4096_S4x4096x4096_1_2 : S4096x4096.BroadcastsInDim S4x4096x4096 (![1, 2] : Fin 2 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  bcast_S_S4x4096x1024 : S_.BroadcastsInDim S4x4096x1024 (![] : Fin 0 → Fin S4x4096x1024.rank)
  dot_S4x4096x1024_S1024x1024_S4x4096x1024_2_1_01_0_n_n_wf : DotDims.WF S4x4096x1024 S1024x1024 S4x4096x1024 [2] [1] [0, 1] [0] [] []
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.R0.lean ====
import proofs.«407511_j23811298689314_3_alg».proof.Proof.Gen.KernelIdeal.Launch
import proofs.«407511_j23811298689314_3_alg».proof.Proof.Gen.KernelIdeal.Skeleton
import proofs.«407511_j23811298689314_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the projection launch at any contents `V` of the buffers on entry: each point multiplies its row block by the three weight matrices side by side and stores three blocks
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0

def out0_2 (x0 : Vec F S512x1024 .bf16) (x1 : Vec F S1024x3072 .bf16) : Vec F S512x1024 .bf16 :=
  View.canon [⟨r0_0, k0_pay2 (View.ld x0 r0_0) (View.ld x1 r0_1)⟩]

def out0_3 (x0 : Vec F S512x1024 .bf16) (x1 : Vec F S1024x3072 .bf16) : Vec F S512x1024 .bf16 :=
  View.canon [⟨r0_0, k0_pay3 (View.ld x0 r0_0) (View.ld x1 r0_1)⟩]

def out0_4 (x0 : Vec F S512x1024 .bf16) (x1 : Vec F S1024x3072 .bf16) : Vec F S512x1024 .bf16 :=
  View.canon [⟨r0_0, k0_pay4 (View.ld x0 r0_0) (View.ld x1 r0_1)⟩]

theorem cover0 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

set_option maxHeartbeats 1000000 in

theorem sound_kernel0 (c : Dev nD) (E : Set ℕ) (i : grid0.Coords)
    (arg1 : Memref sig .tc .vmem S512x1024 .bf16) (harg1 : arg1.IsWhole) (arg2 : Memref sig .tc .vmem S1024x3072 .bf16) (harg2 : arg2.IsWhole)
    (arg3 : Memref sig .tc .vmem S512x1024 .bf16) (harg3 : arg3.IsWhole) (arg4 : Memref sig .tc .vmem S512x1024 .bf16) (harg4 : arg4.IsWhole)
    (arg5 : Memref sig .tc .vmem S512x1024 .bf16) (harg5 : arg5.IsWhole)
    (x0 : Vec F S512x1024 .bf16) (x1 : Vec F S1024x3072 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E (cc0__qkv_matmul_kernel i arg1 harg1 arg2 harg2 arg3 harg3 arg4 harg4 arg5 harg5) K := by
  simp only [cc0__qkv_matmul_kernel_eq_skeleton]; unfold cc0__qkv_matmul_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.R1Runs.lean ====
import proofs.«407511_j23811298689314_3_alg».proof.Proof.Gen.KernelIdeal.Launch
import proofs.«407511_j23811298689314_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev tbM1_0 : Memref sig .tc .smem S2x18 .i32 := Memref.whole main_c
abbrev htbM1_0 : tbM1_0.IsWhole := Memref.isWhole_whole _
abbrev tbM1_1 : Memref sig .tc .smem S2x18 .i32 := Memref.whole main_c_0
abbrev htbM1_1 : tbM1_1.IsWhole := Memref.isWhole_whole _

abbrev TbBuf1 (c : Dev nD) {S : Shape} {e : EltTy} (M : Memref sig .tc .smem S e) : Type := Buf (Elt F) (M.view.loc (c : Thread nD τ))
abbrev tbPt1 (c : Dev nD) {S : Shape} {e : EltTy} (M : Memref sig .tc .smem S e) (f : TbBuf1 (F := F) c M) : sProp 𝕄 :=
  M.view.loc (c : Thread nD τ) ↦{fullShare} f

-- the words the body loads from the two tables at point `i`: the query block `qi` and the key block `ki`
abbrev w1_0 (c : Dev nD) (i : grid1.Coords) (xt0 : TbBuf1 (F := F) c tbM1_0) : BitVec 32 :=
  tbM1_0.view.readAt (Elt F) (Rect.unit (s := S2x18) (k1_off1 i) S1x1.size (k1_off1_inb i)).toLoadRect xt0 (Shape.Idx.first (numel1_S1x1.symm ▸ Nat.one_pos))
abbrev w1_1 (c : Dev nD) (i : grid1.Coords) (xt1 : TbBuf1 (F := F) c tbM1_1) : BitVec 32 :=
  tbM1_1.view.readAt (Elt F) (Rect.unit (s := S2x18) (k1_off1 i) S1x1.size (k1_off1_inb i)).toLoadRect xt1 (Shape.Idx.first (numel1_S1x1.symm ▸ Nat.one_pos))

-- the body's branch conditions: `ki = 0`, `ki = qi`, `ki ≠ qi` (the fourth is the second again)
abbrev cond1_0 (v5 : BitVec 32) : Prop := Scalar.cmpi .ne (Scalar.extui (Scalar.cmpi .eq v5 0#32)) 0#32 = 1#1
abbrev cond1_1 (v2 v5 : BitVec 32) : Prop := Scalar.cmpi .ne (Scalar.extui (Scalar.cmpi .eq v5 v2)) 0#32 = 1#1
abbrev cond1_2 (v2 v5 : BitVec 32) : Prop := Scalar.cmpi .ne (Scalar.extui (Scalar.cmpi .ne v5 v2)) 0#32 = 1#1

abbrev scM1_0 : Memref sig .tc .vmem S1x512x1 .f32 := Memref.whole cc1_scratch0
abbrev scM1_1 : Memref sig .tc .vmem S1x512x1 .f32 := Memref.whole cc1_scratch1
abbrev scM1_2 : Memref sig .tc .vmem S1x512x1024 .f32 := Memref.whole cc1_scratch2
abbrev VS1_0 : View sig .tc .vmem S1x512x1 .f32 := scM1_0.view
abbrev VS1_1 : View sig .tc .vmem S1x512x1 .f32 := scM1_1.view
abbrev VS1_2 : View sig .tc .vmem S1x512x1024 .f32 := scM1_2.view
abbrev VO1_3 : View sig .tc .vmem S1x512x1024 .f32 := (Memref.whole cc1_stg3_0 : Memref sig .tc .vmem S1x512x1024 .f32).view

variable (c : Dev nD) (i : grid1.Coords)
  (arg5 : Memref sig .tc .vmem S1x512x1024 .bf16) (harg5 : arg5.IsWhole) (arg6 : Memref sig .tc .vmem S1x512x1024 .bf16) (harg6 : arg6.IsWhole)
  (arg7 : Memref sig .tc .vmem S1x512x1024 .bf16) (harg7 : arg7.IsWhole) (arg8 : Memref sig .tc .vmem S1x512x1024 .f32) (harg8 : arg8.IsWhole)
  (arg9 : Memref sig .tc .vmem S1x512x1 .f32) (harg9 : arg9.IsWhole) (arg10 : Memref sig .tc .vmem S1x512x1 .f32) (harg10 : arg10.IsWhole)
  (arg11 : Memref sig .tc .vmem S1x512x1024 .f32) (harg11 : arg11.IsWhole)
  (x0 x1 x2 : Vec F S1x512x1024 .bf16) (xt0 : TbBuf1 (F := F) c tbM1_0) (xt1 : TbBuf1 (F := F) c tbM1_1)

-- the lists of written pieces a run of the body finds for the output's buffer and the three scratch buffers, with what the run proves of them
abbrev Run1 (P : List (View.Piece (Elt F) S1x512x1024 .f32) → List (View.Piece (Elt F) S1x512x1 .f32) → List (View.Piece (Elt F) S1x512x1 .f32) → List (View.Piece (Elt F) S1x512x1024 .f32) → Prop) :=
  Σ' (L3 : List (View.Piece (Elt F) S1x512x1024 .f32)) (LS0 : List (View.Piece (Elt F) S1x512x1 .f32)) (LS1 : List (View.Piece (Elt F) S1x512x1 .f32)), { LS2 : List (View.Piece (Elt F) S1x512x1024 .f32) // P L3 LS0 LS1 LS2 }

variable {P : List (View.Piece (Elt F) S1x512x1024 .f32) → List (View.Piece (Elt F) S1x512x1 .f32) → List (View.Piece (Elt F) S1x512x1 .f32) → List (View.Piece (Elt F) S1x512x1024 .f32) → Prop}

-- what a run leaves in the output's buffer, the running maximum, the running sum and the accumulator: its pieces read back over junk
def leaves1 (r : Run1 (F := F) P) : Vec F S1x512x1024 .f32 × Vec F S1x512x1 .f32 × Vec F S1x512x1 .f32 × Vec F S1x512x1024 .f32 :=
  (VO1_3.read (Elt F) (VO1_3.writes (Elt F) VO1_3.junk r.1), VS1_0.read (Elt F) (VS1_0.writes (Elt F) VS1_0.junk r.2.1),
    VS1_1.read (Elt F) (VS1_1.writes (Elt F) VS1_1.junk r.2.2.1), VS1_2.read (Elt F) (VS1_2.writes (Elt F) VS1_2.junk r.2.2.2.1))

-- a run's pieces for each scratch buffer cover it
abbrev SCovers1 (r : Run1 (F := F) P) : Prop :=
  (∀ y, ∃ pc ∈ r.2.1, y ∈ pc.1.set) ∧ (∀ y, ∃ pc ∈ r.2.2.1, y ∈ pc.1.set) ∧ (∀ y, ∃ pc ∈ r.2.2.2.1, y ∈ pc.1.set)

section A
variable (hc0 : cond1_0 (w1_1 c i xt1)) (hc1 : cond1_1 (w1_0 c i xt0) (w1_1 c i xt1)) (hc2 : ¬cond1_2 (w1_0 c i xt0) (w1_1 c i xt1))
include hc0 hc1 hc2

set_option maxHeartbeats 1000000 in
-- `ki = 0`, `ki = qi`: reset, masked update, output; the output's buffer and the scratch start at anything
noncomputable def kernelRun1_A : Run1 (F := F) fun L3 LS0 LS1 LS2 =>
      ∀ (E : Set ℕ) (K : PUnit → sProp 𝕄),
        iprop(owns (c : Thread nD τ) arg5 fullShare x0 ∗ owns (c : Thread nD τ) arg6 fullShare x1 ∗ owns (c : Thread nD τ) arg7 fullShare x2 ∗ (∃ d, owns (c : Thread nD τ) arg8 fullShare d)
            ∗ (∃ d, owns (c : Thread nD τ) arg9 fullShare d) ∗ (∃ d, owns (c : Thread nD τ) arg10 fullShare d) ∗ (∃ d, owns (c : Thread nD τ) arg11 fullShare d) ∗ tbPt1 c tbM1_0 xt0 ∗ tbPt1 c tbM1_1 xt1
            ∗ (iprop(owns (c : Thread nD τ) arg5 fullShare x0 ∗ owns (c : Thread nD τ) arg6 fullShare x1 ∗ owns (c : Thread nD τ) arg7 fullShare x2 ∗ (∃ f, arg8.view.loc (c : Thread nD τ) ↦[arg8.view.set]{fullShare} arg8.view.writes (Elt F) f L3)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)
                ∗ tbPt1 c tbM1_0 xt0 ∗ tbPt1 c tbM1_1 xt1) -∗ K ⟨⟩))
          ⊢ wp frame (wpE (defs₀ (F := F)) Variants.none c none) E (cc1__flash_causal_kernel i tbM1_0 htbM1_0 tbM1_1 htbM1_1 arg5 harg5 arg6 harg6 arg7 harg7 arg8 harg8 arg9 harg9 arg10 harg10 arg11 harg11) K := by
  refine ⟨?_, ?_, ?_, ?_, fun E K => ?run⟩
  case run =>
    simp only [cc1__flash_causal_kernel_eq_skeleton]; unfold cc1__flash_causal_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, HT0, HT1, Hk⟩
    obtain rfl := harg5.eq_unread hf0; obtain rfl := harg6.eq_unread hf1; obtain rfl := harg7.eq_unread hf2
    sl_exec (disch := first | sl_exact hc0 | sl_exact hc1 | sl_exact hc2)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]; · iexists _; iexact H3
    isplitl [HS0]; · iexists _; iexact HS0
    isplitl [HS1]; · iexists _; iexact HS1
    isplitl [HS2]; · iexists _; iexact HS2
    isplitl [HT0]; · iexact HT0
    iexact HT1

theorem cover1_A : (∀ y, ∃ pc ∈ (kernelRun1_A c i arg5 harg5 arg6 harg6 arg7 harg7 arg8 harg8 arg9 harg9 arg10 harg10 arg11 harg11 x0 x1 x2 xt0 xt1 hc0 hc1 hc2).1, y ∈ pc.1.set) ∧ SCovers1 (kernelRun1_A c i arg5 harg5 arg6 harg6 arg7 harg7 arg8 harg8 arg9 harg9 arg10 harg10 arg11 harg11 x0 x1 x2 xt0 xt1 hc0 hc1 hc2) :=
  ⟨View.cover_of_tiledL _ S1x512x1024.size (by sl_kernel_rfl), View.cover_of_tiledL _ S1x512x1.size (by sl_kernel_rfl),
    View.cover_of_tiledL _ S1x512x1.size (by sl_kernel_rfl), View.cover_of_tiledL _ S1x512x1024.size (by sl_kernel_rfl)⟩

end A

section B
variable (hc0 : cond1_0 (w1_1 c i xt1)) (hc1 : ¬cond1_1 (w1_0 c i xt0) (w1_1 c i xt1)) (hc2 : cond1_2 (w1_0 c i xt0) (w1_1 c i xt1))
include hc0 hc1 hc2

set_option maxHeartbeats 1000000 in
-- `ki = 0`, `ki ≠ qi`: reset, plain update; the output's buffer is left as found, the scratch starts at anything
noncomputable def kernelRun1_B : Run1 (F := F) fun L3 LS0 LS1 LS2 =>
      ∀ (xi3 : Vec F S1x512x1024 .f32) (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare xi3
            ∗ (∃ d, owns (c : Thread nD τ) arg9 fullShare d) ∗ (∃ d, owns (c : Thread nD τ) arg10 fullShare d) ∗ (∃ d, owns (c : Thread nD τ) arg11 fullShare d) ∗ tbPt1 c tbM1_0 xt0 ∗ tbPt1 c tbM1_1 xt1
            ∗ (iprop(owns (c : Thread nD τ) arg5 fullShare x0 ∗ owns (c : Thread nD τ) arg6 fullShare x1 ∗ owns (c : Thread nD τ) arg7 fullShare x2 ∗ owns (c : Thread nD τ) arg8 fullShare xi3
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)
                ∗ tbPt1 c tbM1_0 xt0 ∗ tbPt1 c tbM1_1 xt1) -∗ K ⟨⟩))
          ⊢ wp frame (wpE (defs₀ (F := F)) Variants.none c none) E (cc1__flash_causal_kernel i tbM1_0 htbM1_0 tbM1_1 htbM1_1 arg5 harg5 arg6 harg6 arg7 harg7 arg8 harg8 arg9 harg9 arg10 harg10 arg11 harg11) K := by
  refine ⟨[], ?_, ?_, ?_, fun xi3 E K => ?run⟩
  case run =>
    simp only [cc1__flash_causal_kernel_eq_skeleton]; unfold cc1__flash_causal_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, HT0, HT1, Hk⟩
    obtain rfl := harg5.eq_unread hf0; obtain rfl := harg6.eq_unread hf1; obtain rfl := harg7.eq_unread hf2; obtain rfl := harg8.eq_unread hf3
    sl_exec (disch := first | sl_exact hc0 | sl_exact hc1 | sl_exact hc2)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [HS0]; · iexists _; iexact HS0
    isplitl [HS1]; · iexists _; iexact HS1
    isplitl [HS2]; · iexists _; iexact HS2
    isplitl [HT0]; · iexact HT0
    iexact HT1

theorem cover1_B : SCovers1 (kernelRun1_B c i arg5 harg5 arg6 harg6 arg7 harg7 arg8 harg8 arg9 harg9 arg10 harg10 arg11 harg11 x0 x1 x2 xt0 xt1 hc0 hc1 hc2) :=
  ⟨View.cover_of_tiledL _ S1x512x1.size (by sl_kernel_rfl), View.cover_of_tiledL _ S1x512x1.size (by sl_kernel_rfl), View.cover_of_tiledL _ S1x512x1024.size (by sl_kernel_rfl)⟩

end B

section C
variable (hc0 : ¬cond1_0 (w1_1 c i xt1)) (hc1 : cond1_1 (w1_0 c i xt0) (w1_1 c i xt1)) (hc2 : ¬cond1_2 (w1_0 c i xt0) (w1_1 c i xt1))
  (xs0 xs1 : Vec F S1x512x1 .f32) (xs2 : Vec F S1x512x1024 .f32)
include hc0 hc1 hc2

set_option maxHeartbeats 1000000 in
-- `ki ≠ 0`, `ki = qi`: masked update, output; the scratch starts at what the point before left, the output's buffer at anything
noncomputable def kernelRun1_C : Run1 (F := F) fun L3 LS0 LS1 LS2 =>
      ∀ (E : Set ℕ) (K : PUnit → sProp 𝕄),
        iprop(owns (c : Thread nD τ) arg5 fullShare x0 ∗ owns (c : Thread nD τ) arg6 fullShare x1 ∗ owns (c : Thread nD τ) arg7 fullShare x2 ∗ (∃ d, owns (c : Thread nD τ) arg8 fullShare d)
            ∗ owns (c : Thread nD τ) arg9 fullShare xs0 ∗ owns (c : Thread nD τ) arg10 fullShare xs1 ∗ owns (c : Thread nD τ) arg11 fullShare xs2 ∗ tbPt1 c tbM1_0 xt0 ∗ tbPt1 c tbM1_1 xt1
            ∗ (iprop(owns (c : Thread nD τ) arg5 fullShare x0 ∗ owns (c : Thread nD τ) arg6 fullShare x1 ∗ owns (c : Thread nD τ) arg7 fullShare x2 ∗ (∃ f, arg8.view.loc (c : Thread nD τ) ↦[arg8.view.set]{fullShare} arg8.view.writes (Elt F) f L3)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)
                ∗ tbPt1 c tbM1_0 xt0 ∗ tbPt1 c tbM1_1 xt1) -∗ K ⟨⟩))
          ⊢ wp frame (wpE (defs₀ (F := F)) Variants.none c none) E (cc1__flash_causal_kernel i tbM1_0 htbM1_0 tbM1_1 htbM1_1 arg5 harg5 arg6 harg6 arg7 harg7 arg8 harg8 arg9 harg9 arg10 harg10 arg11 harg11) K := by
  refine ⟨?_, ?_, ?_, ?_, fun E K => ?run⟩
  case run =>
    simp only [cc1__flash_causal_kernel_eq_skeleton]; unfold cc1__flash_causal_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, HT0, HT1, Hk⟩
    obtain rfl := harg5.eq_unread hf0; obtain rfl := harg6.eq_unread hf1; obtain rfl := harg7.eq_unread hf2
    obtain rfl := harg9.eq_unread hfs0; obtain rfl := harg10.eq_unread hfs1; obtain rfl := harg11.eq_unread hfs2
    sl_exec (disch := first | sl_exact hc0 | sl_exact hc1 | sl_exact hc2)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]; · iexists _; iexact H3
    isplitl [HS0]; · iexists _; iexact HS0
    isplitl [HS1]; · iexists _; iexact HS1
    isplitl [HS2]; · iexists _; iexact HS2
    isplitl [HT0]; · iexact HT0
    iexact HT1

theorem cover1_C : (∀ y, ∃ pc ∈ (kernelRun1_C c i arg5 harg5 arg6 harg6 arg7 harg7 arg8 harg8 arg9 harg9 arg10 harg10 arg11 harg11 x0 x1 x2 xt0 xt1 hc0 hc1 hc2 xs0 xs1 xs2).1, y ∈ pc.1.set) ∧ SCovers1 (kernelRun1_C c i arg5 harg5 arg6 harg6 arg7 harg7 arg8 harg8 arg9 harg9 arg10 harg10 arg11 harg11 x0 x1 x2 xt0 xt1 hc0 hc1 hc2 xs0 xs1 xs2) :=
  ⟨View.cover_of_tiledL _ S1x512x1024.size (by sl_kernel_rfl), View.cover_of_tiledL _ S1x512x1.size (by sl_kernel_rfl),
    View.cover_of_tiledL _ S1x512x1.size (by sl_kernel_rfl), View.cover_of_tiledL _ S1x512x1024.size (by sl_kernel_rfl)⟩

end C

section D
variable (hc0 : ¬cond1_0 (w1_1 c i xt1)) (hc1 : ¬cond1_1 (w1_0 c i xt0) (w1_1 c i xt1)) (hc2 : cond1_2 (w1_0 c i xt0) (w1_1 c i xt1))
  (xs0 xs1 : Vec F S1x512x1 .f32) (xs2 : Vec F S1x512x1024 .f32)
include hc0 hc1 hc2

set_option maxHeartbeats 1000000 in
-- `ki ≠ 0`, `ki ≠ qi`: plain update; the scratch starts at what the point before left, the output's buffer is left as found
noncomputable def kernelRun1_D : Run1 (F := F) fun L3 LS0 LS1 LS2 =>
      ∀ (xi3 : Vec F S1x512x1024 .f32) (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare xi3
            ∗ owns (c : Thread nD τ) arg9 fullShare xs0 ∗ owns (c : Thread nD τ) arg10 fullShare xs1 ∗ owns (c : Thread nD τ) arg11 fullShare xs2 ∗ tbPt1 c tbM1_0 xt0 ∗ tbPt1 c tbM1_1 xt1
            ∗ (iprop(owns (c : Thread nD τ) arg5 fullShare x0 ∗ owns (c : Thread nD τ) arg6 fullShare x1 ∗ owns (c : Thread nD τ) arg7 fullShare x2 ∗ owns (c : Thread nD τ) arg8 fullShare xi3
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)
                ∗ tbPt1 c tbM1_0 xt0 ∗ tbPt1 c tbM1_1 xt1) -∗ K ⟨⟩))
          ⊢ wp frame (wpE (defs₀ (F := F)) Variants.none c none) E (cc1__flash_causal_kernel i tbM1_0 htbM1_0 tbM1_1 htbM1_1 arg5 harg5 arg6 harg6 arg7 harg7 arg8 harg8 arg9 harg9 arg10 harg10 arg11 harg11) K := by
  refine ⟨[], ?_, ?_, ?_, fun xi3 E K => ?run⟩
  case run =>
    simp only [cc1__flash_causal_kernel_eq_skeleton]; unfold cc1__flash_causal_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, HT0, HT1, Hk⟩
    obtain rfl := harg5.eq_unread hf0; obtain rfl := harg6.eq_unread hf1; obtain rfl := harg7.eq_unread hf2; obtain rfl := harg8.eq_unread hf3
    obtain rfl := harg9.eq_unread hfs0; obtain rfl := harg10.eq_unread hfs1; obtain rfl := harg11.eq_unread hfs2
    sl_exec (disch := first | sl_exact hc0 | sl_exact hc1 | sl_exact hc2)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [HS0]; · iexists _; iexact HS0
    isplitl [HS1]; · iexists _; iexact HS1
    isplitl [HS2]; · iexists _; iexact HS2
    isplitl [HT0]; · iexact HT0
    iexact HT1

theorem cover1_D : SCovers1 (kernelRun1_D c i arg5 harg5 arg6 harg6 arg7 harg7 arg8 harg8 arg9 harg9 arg10 harg10 arg11 harg11 x0 x1 x2 xt0 xt1 hc0 hc1 hc2 xs0 xs1 xs2) :=
  ⟨View.cover_of_tiledL _ S1x512x1.size (by sl_kernel_rfl), View.cover_of_tiledL _ S1x512x1.size (by sl_kernel_rfl), View.cover_of_tiledL _ S1x512x1024.size (by sl_kernel_rfl)⟩

end D

end Cert.KernelIdeal.Hand

end
-- ==== Proof.Sched.lean ====
import proofs.«407511_j23811298689314_3_alg».proof.Proof.Gen.KernelIdeal.Launch
import Idealize.ShloMosaic.Lib.Pipeline.Kit
import Idealize.ShloMosaic.Lib.Pipeline.Frame

/- The triangular schedule of the attention launch: at point (core, batch, step) two table words name the query block `qi` and the key
   block `ki ≤ qi`; a point with `ki ≠ 0` follows the point with the same batch and query block and key block `ki - 1`; the output block
   (batch, qi) is written back exactly at `ki = qi`, and these blocks cover the output array. -/

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F] [Named F]

def tblLit : pre1.Contents (Elt F) := fun
  | ⟨0, _⟩ => fun i => lit0 (S2x18.rowMajor i)
  | ⟨1, _⟩ => fun i => lit1 (S2x18.rowMajor i)
  | ⟨_ + 2, h⟩ => absurd h (Nat.not_lt.2 (Nat.le_add_left _ _))

theorem size_S1x1 : ∀ a : Fin 2, S1x1.size a = 1 := by decide
theorem off_lt (i : grid1.Coords) (a : Fin 2) : k1_off1 i a + 1 ≤ S2x18.size a := size_S1x1 a ▸ k1_off1_inb i a

def cellAt (i : grid1.Coords) : S2x18.Idx :=
  (Rect.unit (s := S2x18) (k1_off1 i) S1x1.size (k1_off1_inb i)).emb (Shape.Idx.first (numel1_S1x1.symm ▸ Nat.one_pos))

def cellD (i : grid1.Coords) : S2x18.Idx := fun a => ⟨k1_off1 i a, off_lt i a⟩

theorem cell_eq : ∀ t : Fin grid1.N, cellAt (grid1.coords t) = cellD (grid1.coords t) := by decide +kernel

def bOf (t : Fin grid1.N) : Fin 4 := grid1.coords t 1

def qiW (t : Fin grid1.N) : BitVec 32 := lit0 (S2x18.rowMajor (cellD (grid1.coords t)))
def kiW (t : Fin grid1.N) : BitVec 32 := lit1 (S2x18.rowMajor (cellD (grid1.coords t)))

def qiN (t : Fin grid1.N) : ℕ := (qiW t).toNat
def kiN (t : Fin grid1.N) : ℕ := (kiW t).toNat

theorem qiW_eq (t : Fin grid1.N) : (tblLit (F := F)).atD 0 (k1_off1 (grid1.coords t)) = qiW t := dif_pos (off_lt _)
theorem kiW_eq (t : Fin grid1.N) : (tblLit (F := F)).atD 1 (k1_off1 (grid1.coords t)) = kiW t := dif_pos (off_lt _)
theorem qiW_at (t : Fin grid1.N) : tblLit (F := F) 0 (cellAt (grid1.coords t)) = qiW t := by rw [cell_eq]; rfl
theorem kiW_at (t : Fin grid1.N) : tblLit (F := F) 1 (cellAt (grid1.coords t)) = kiW t := by rw [cell_eq]; rfl

theorem ki_le_qi : ∀ t : Fin grid1.N, kiN t ≤ qiN t ∧ qiN t < 8 := by decide +kernel

theorem tr0_eq (pf : pre1.Contents (Elt F)) (i : grid1.Coords) :
    cc1_transform_0 k1_off1_inb numel1_S1x1 pf i = ![(BitVec.ofNat 32 (i 1).val).toNat, (pf 0 (cellAt i) : BitVec 32).toNat, 0] := rfl
theorem tr1_eq (pf : pre1.Contents (Elt F)) (i : grid1.Coords) :
    cc1_transform_1 k1_off1_inb numel1_S1x1 pf i = ![(BitVec.ofNat 32 (i 1).val).toNat, (pf 1 (cellAt i) : BitVec 32).toNat, 0] := rfl
theorem tr2_eq (pf : pre1.Contents (Elt F)) (i : grid1.Coords) :
    cc1_transform_2 k1_off1_inb numel1_S1x1 pf i = ![(BitVec.ofNat 32 (i 1).val).toNat, (pf 1 (cellAt i) : BitVec 32).toNat, 0] := rfl
theorem tr3_eq (pf : pre1.Contents (Elt F)) (i : grid1.Coords) :
    cc1_transform_3 k1_off1_inb numel1_S1x1 pf i = ![(BitVec.ofNat 32 (i 1).val).toNat, (pf 0 (cellAt i) : BitVec 32).toNat, 0] := rfl

def ixOf (w : S2x18.Idx → BitVec 32) (i : grid1.Coords) : Fin 3 → ℕ := ![(BitVec.ofNat 32 (i 1).val).toNat, (w (cellAt i)).toNat, 0]

theorem inb_lit0 : ∀ (i : grid1.Coords) a, (ixOf (fun x => lit0 (S2x18.rowMajor x)) i a + 1) * S1x512x1024.size a ≤ S4x4096x1024.size a := by decide +kernel
theorem inb_lit1 : ∀ (i : grid1.Coords) a, (ixOf (fun x => lit1 (S2x18.rowMajor x)) i a + 1) * S1x512x1024.size a ≤ S4x4096x1024.size a := by decide +kernel

theorem ok_lit : ok1 (F := F) tblLit :=
  ⟨fun i => ⟨inb_lit0 i, .inr (Affine.block_words_dvd (of_decide_eq_true rfl) (by decide))⟩,
   fun i => ⟨inb_lit1 i, .inr (Affine.block_words_dvd (of_decide_eq_true rfl) (by decide))⟩,
   fun i => ⟨inb_lit1 i, .inr (Affine.block_words_dvd (of_decide_eq_true rfl) (by decide))⟩,
   fun i => ⟨inb_lit0 i, .inl rfl⟩⟩

abbrev adm1 : (pcfg1 (F := F)).Adm := ⟨tblLit, ok_lit⟩
abbrev cfgM : Pipeline.Cfg sig Λ₀ := cfg1 (F := F) adm1
theorem N_M : (cfgM (F := F)).N = 144 := N_1

theorem batch_word : ∀ t : Fin grid1.N, (BitVec.ofNat 32 (grid1.coords t 1).val).toNat = (bOf t).val := by decide +kernel

theorem index0 (t : Fin grid1.N) : ((cfgM (F := F)).win 0).index t = ![(bOf t).val, qiN t, 0] := by
  show cc1_transform_0 k1_off1_inb numel1_S1x1 (tblLit (F := F)) (grid1.coords t) = _
  rw [tr0_eq, qiW_at, batch_word]; rfl

theorem index1 (t : Fin grid1.N) : ((cfgM (F := F)).win 1).index t = ![(bOf t).val, kiN t, 0] := by
  show cc1_transform_1 k1_off1_inb numel1_S1x1 (tblLit (F := F)) (grid1.coords t) = _
  rw [tr1_eq, kiW_at, batch_word]; rfl

theorem index2 (t : Fin grid1.N) : ((cfgM (F := F)).win 2).index t = ![(bOf t).val, kiN t, 0] := by
  show cc1_transform_2 k1_off1_inb numel1_S1x1 (tblLit (F := F)) (grid1.coords t) = _
  rw [tr2_eq, kiW_at, batch_word]; rfl

theorem index3 (t : Fin grid1.N) : ((cfgM (F := F)).win 3).index t = ![(bOf t).val, qiN t, 0] := by
  show cc1_transform_3 k1_off1_inb numel1_S1x1 (tblLit (F := F)) (grid1.coords t) = _
  rw [tr3_eq, qiW_at, batch_word]; rfl

theorem kiW_zero : ∀ t : Fin grid1.N, kiW t = 0#32 ↔ kiN t = 0 := by decide +kernel
theorem kiW_eq_qiW : ∀ t : Fin grid1.N, kiW t = qiW t ↔ kiN t = qiN t := by decide +kernel
theorem cond4_iff : ∀ t : Fin grid1.N, k1_cond4 (qiW t) (kiW t) = 1#1 ↔ kiN t = qiN t := by decide +kernel

theorem cond_first : ∀ t : Fin grid1.N, Scalar.cmpi .ne (Scalar.extui (Scalar.cmpi .eq (kiW t) 0#32) : BitVec 32) 0#32 = 1#1 ↔ kiN t = 0 := by decide +kernel

theorem cond_diag : ∀ t : Fin grid1.N, Scalar.cmpi .ne (Scalar.extui (Scalar.cmpi .eq (kiW t) (qiW t)) : BitVec 32) 0#32 = 1#1 ↔ kiN t = qiN t := by decide +kernel

theorem cond_off : ∀ t : Fin grid1.N, Scalar.cmpi .ne (Scalar.extui (Scalar.cmpi .ne (kiW t) (qiW t)) : BitVec 32) 0#32 = 1#1 ↔ kiN t ≠ qiN t := by decide +kernel

theorem idle3 (t : Fin grid1.N) : (cfgM (F := F)).idle 3 (grid1.coords t) = true ↔ kiN t ≠ qiN t := by
  show (!(k1_cond4 ((tblLit (F := F)).atD 0 (k1_off1 (grid1.coords t))) ((tblLit (F := F)).atD 1 (k1_off1 (grid1.coords t))) == 1#1)) = true ↔ _
  rw [qiW_eq, kiW_eq, Bool.not_eq_true', beq_eq_false_iff_ne]
  exact not_congr (cond4_iff t)
theorem idle0 (i : grid1.Coords) : (cfgM (F := F)).idle 0 i = false := rfl
theorem idle1' (i : grid1.Coords) : (cfgM (F := F)).idle 1 i = false := rfl
theorem idle2 (i : grid1.Coords) : (cfgM (F := F)).idle 2 i = false := rfl

def idx3 (t : Fin grid1.N) : Fin 3 → ℕ := ![(bOf t).val, qiN t, 0]

theorem idx3_step : ∀ t : Fin grid1.N, (t.val + 1 = grid1.N ∨ ∃ h : t.val + 1 < grid1.N, idx3 ⟨t.val + 1, h⟩ ≠ idx3 t) ↔ kiN t = qiN t := by decide +kernel

theorem flush_iff_of_index {G : Pipeline.Grid} (w : Pipeline.Window sig G) (hout : w.isOut = true)
    (f : Fin G.N → Fin w.shape.rank → ℕ) (hf : ∀ s, w.index s = f s) (t : Fin G.N) :
    w.flush t = true ↔ (t.val + 1 = G.N ∨ ∃ h : t.val + 1 < G.N, f ⟨t.val + 1, h⟩ ≠ f t) := by
  unfold Pipeline.Window.flush
  rw [hout]
  simp only [hf, Bool.true_and, Bool.or_eq_true, decide_eq_true_eq]

theorem flush3 (t : Fin grid1.N) : ((cfgM (F := F)).win 3).flush t = true ↔ kiN t = qiN t :=
  (flush_iff_of_index ((cfgM (F := F)).win 3) rfl idx3 index3 t).trans (idx3_step t)

theorem pred : ∀ t : Fin grid1.N, kiN t ≠ 0 → ∃ h : 0 < t.val,
    bOf ⟨t.val - 1, by omega⟩ = bOf t ∧ qiN ⟨t.val - 1, by omega⟩ = qiN t ∧ kiN ⟨t.val - 1, by omega⟩ + 1 = kiN t := by decide +kernel

theorem cover : ∀ (b : Fin 4) (q : Fin 8), ∃ t : Fin grid1.N, bOf t = b ∧ qiN t = q.val ∧ kiN t = q.val := by decide +kernel

theorem cover_unique : ∀ t t' : Fin grid1.N, kiN t = qiN t → kiN t' = qiN t' → bOf t = bOf t' → qiN t = qiN t' → t = t' := by decide +kernel

theorem load_q (t : Fin grid1.N) :
    (Memref.whole main_c).view.readAt (Elt F) (Rect.unit (s := S2x18) (k1_off1 (grid1.coords t)) S1x1.size (k1_off1_inb (grid1.coords t))).toLoadRect (tblLit (F := F) 0) (Shape.Idx.first (numel1_S1x1.symm ▸ Nat.one_pos)) = qiW t := by
  rw [← qiW_at (F := F) t]; rfl
theorem load_k (t : Fin grid1.N) :
    (Memref.whole main_c_0).view.readAt (Elt F) (Rect.unit (s := S2x18) (k1_off1 (grid1.coords t)) S1x1.size (k1_off1_inb (grid1.coords t))).toLoadRect (tblLit (F := F) 1) (Shape.Idx.first (numel1_S1x1.symm ▸ Nat.one_pos)) = kiW t := by
  rw [← kiW_at (F := F) t]; rfl

theorem qiN_def (t : Fin grid1.N) : qiN t = (qiW t).toNat := rfl
theorem kiN_def (t : Fin grid1.N) : kiN t = (kiW t).toNat := rfl

attribute [irreducible] qiN kiN

end Cert.KernelIdeal.Hand

end
-- ==== Proof.R1Data.lean ====
import proofs.«407511_j23811298689314_3_alg».proof.Proof.R1Runs
import proofs.«407511_j23811298689314_3_alg».proof.Proof.Sched
import proofs.«407511_j23811298689314_3_alg».proof.Proof.Gen.KernelIdeal.Launch
import Idealize.ShloMosaic.Lib.Pipeline.FrameBody
import Idealize.ShloMosaic.Lib.Pipeline.TableIdle
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- `V`: what every buffer holds when the region is entered
variable (V : (c : Dev nD) → (b : Ref sig .tc) → Buf (Elt F) ((c : Thread nD τ).loc b))

-- the second condition says the two words are equal, the third that they differ
theorem cond1_1_iff (v2 v5 : BitVec 32) : cond1_1 v2 v5 ↔ v5 = v2 := by
  unfold cond1_1 Scalar.cmpi Scalar.extui IntOp.cmpi
  by_cases h : v5 = v2
  · have hb : (v5 == v2) = true := beq_iff_eq.mpr h
    simp only [hb]; exact ⟨fun _ => h, fun _ => by decide⟩
  · have hb : (v5 == v2) = false := beq_eq_false_iff_ne.mpr h
    simp only [hb]; exact ⟨fun hh => absurd hh (by decide), fun hh => absurd hh h⟩

theorem cond1_2_iff (v2 v5 : BitVec 32) : cond1_2 v2 v5 ↔ ¬cond1_1 v2 v5 := by
  rw [cond1_1_iff]
  unfold cond1_2 Scalar.cmpi Scalar.extui IntOp.cmpi
  by_cases h : v5 = v2
  · have hb : (v5 != v2) = false := bne_eq_false_iff_eq.mpr h
    simp only [hb]; exact ⟨fun hh => absurd hh (by decide), fun hh => absurd h hh⟩
  · have hb : (v5 != v2) = true := bne_iff_ne.mpr h
    simp only [hb]; exact ⟨fun _ => h, fun _ => by decide⟩

theorem c2_of {v2 v5 : BitVec 32} (h : ¬cond1_1 v2 v5) : cond1_2 v2 v5 := (cond1_2_iff _ _).mpr h
theorem nc2_of {v2 v5 : BitVec 32} (h : cond1_1 v2 v5) : ¬cond1_2 v2 v5 := fun h' => (cond1_2_iff _ _).mp h' h

-- window `w`'s block at point `t`, read off its array as the region finds it
def iblk1 (c : Dev nD) (w : Fin (cfgM (F := F)).W) (t : Fin (cfgM (F := F)).N) : (((cfgM (F := F)).win w).xblock ((cfgM (F := F)).grid.coords t)).Idx → Elt F ((cfgM (F := F)).win w).elt :=
  (((cfgM (F := F)).win w).blk t).view.read (Elt F) (V c (Pipeline.arrRef spec1 w))

abbrev ms1_0 (t : Fin (cfgM (F := F)).N) : Memref sig .tc .vmem S1x512x1024 .bf16 := spec1_0.stage ((cfgM (F := F)).slots t 0)
abbrev hs1_0 (t : Fin (cfgM (F := F)).N) : (ms1_0 (F := F) t).IsWhole := hstage1_0 (((cfgM (F := F)).slots t 0).cast nbuf1_0)
abbrev ms1_1 (t : Fin (cfgM (F := F)).N) : Memref sig .tc .vmem S1x512x1024 .bf16 := spec1_1.stage ((cfgM (F := F)).slots t 1)
abbrev hs1_1 (t : Fin (cfgM (F := F)).N) : (ms1_1 (F := F) t).IsWhole := hstage1_1 (((cfgM (F := F)).slots t 1).cast nbuf1_1)
abbrev ms1_2 (t : Fin (cfgM (F := F)).N) : Memref sig .tc .vmem S1x512x1024 .bf16 := spec1_2.stage ((cfgM (F := F)).slots t 2)
abbrev hs1_2 (t : Fin (cfgM (F := F)).N) : (ms1_2 (F := F) t).IsWhole := hstage1_2 (((cfgM (F := F)).slots t 2).cast nbuf1_2)
abbrev ms1_3 (t : Fin (cfgM (F := F)).N) : Memref sig .tc .vmem S1x512x1024 .f32 := spec1_3.stage ((cfgM (F := F)).slots t 3)
abbrev hs1_3 (t : Fin (cfgM (F := F)).N) : (ms1_3 (F := F) t).IsWhole := hstage1_3 (((cfgM (F := F)).slots t 3).cast nbuf1_3)

-- the two conditions that select the case at point `t`: `ki = 0` and `ki = qi`
abbrev c0At (c : Dev nD) (t : Fin (cfgM (F := F)).N) : Prop := cond1_0 (w1_1 (F := F) c (grid1.coords t) (tblLit 1))
abbrev c1At (c : Dev nD) (t : Fin (cfgM (F := F)).N) : Prop := cond1_1 (w1_0 (F := F) c (grid1.coords t) (tblLit 0)) (w1_1 (F := F) c (grid1.coords t) (tblLit 1))

-- the run of the body at point `t`, case by case, at the point's buffers, input blocks and table words
abbrev runA1 (c : Dev nD) (t : Fin (cfgM (F := F)).N) (h0 : c0At (F := F) c t) (h1 : c1At (F := F) c t) :=
  kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (tblLit 0) (tblLit 1) h0 h1 (nc2_of h1)
abbrev runB1 (c : Dev nD) (t : Fin (cfgM (F := F)).N) (h0 : c0At (F := F) c t) (h1 : ¬c1At (F := F) c t) :=
  kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (tblLit 0) (tblLit 1) h0 h1 (c2_of h1)
abbrev runC1 (c : Dev nD) (t : Fin (cfgM (F := F)).N) (h0 : ¬c0At (F := F) c t) (h1 : c1At (F := F) c t) (p : Vec F S1x512x1 .f32 × Vec F S1x512x1 .f32 × Vec F S1x512x1024 .f32) :=
  kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (tblLit 0) (tblLit 1) h0 h1 (nc2_of h1) p.1 p.2.1 p.2.2
abbrev runD1 (c : Dev nD) (t : Fin (cfgM (F := F)).N) (h0 : ¬c0At (F := F) c t) (h1 : ¬c1At (F := F) c t) (p : Vec F S1x512x1 .f32 × Vec F S1x512x1 .f32 × Vec F S1x512x1024 .f32) :=
  kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (tblLit 0) (tblLit 1) h0 h1 (c2_of h1) p.1 p.2.1 p.2.2

-- one point's step: what the selected case leaves, the carried buffers holding `p` before it (the reset cases do not read `p`)
def stepAt1 (c : Dev nD) (t : Fin (cfgM (F := F)).N) (p : Vec F S1x512x1 .f32 × Vec F S1x512x1 .f32 × Vec F S1x512x1024 .f32) :
    Vec F S1x512x1024 .f32 × Vec F S1x512x1 .f32 × Vec F S1x512x1 .f32 × Vec F S1x512x1024 .f32 :=
  if h0 : c0At (F := F) c t then
    if h1 : c1At (F := F) c t then leaves1 (runA1 V c t h0 h1) else leaves1 (runB1 V c t h0 h1)
  else
    if h1 : c1At (F := F) c t then leaves1 (runC1 V c t h0 h1 p) else leaves1 (runD1 V c t h0 h1 p)

-- the output buffer and the carried buffers after position `n`: the step over what position `n - 1` left; the first point resets
def outsAt1 (c : Dev nD) : (n : ℕ) → n < (cfgM (F := F)).N → Vec F S1x512x1024 .f32 × Vec F S1x512x1 .f32 × Vec F S1x512x1 .f32 × Vec F S1x512x1024 .f32
  | 0, hn => stepAt1 V c ⟨0, hn⟩ (VS1_0.read (Elt F) VS1_0.junk, VS1_1.read (Elt F) VS1_1.junk, VS1_2.read (Elt F) VS1_2.junk)
  | n + 1, hn => stepAt1 V c ⟨n + 1, hn⟩ (outsAt1 c n (Nat.lt_of_succ_lt hn)).2

theorem w1_0_at (c : Dev nD) (t : Fin (cfgM (F := F)).N) : w1_0 (F := F) c (grid1.coords t) (tblLit 0) = qiW t := by
  rw [← qiW_at (F := F) t]; rfl
theorem w1_1_at (c : Dev nD) (t : Fin (cfgM (F := F)).N) : w1_1 (F := F) c (grid1.coords t) (tblLit 1) = kiW t := by
  rw [← kiW_at (F := F) t]; rfl
theorem c0At_iff (c : Dev nD) (t : Fin (cfgM (F := F)).N) : c0At (F := F) c t ↔ kiN t = 0 := by
  unfold c0At; rw [w1_1_at]; exact cond_first t
theorem c1At_iff (c : Dev nD) (t : Fin (cfgM (F := F)).N) : c1At (F := F) c t ↔ kiN t = qiN t := by
  unfold c1At; rw [w1_0_at, w1_1_at]; exact cond_diag t

-- the first point opens a run: `ki = 0` there
theorem first_c0 (c : Dev nD) (t : Fin (cfgM (F := F)).N) (h : t.val = 0) : c0At (F := F) c t :=
  (c0At_iff c t).mpr (by
    by_contra hk
    obtain ⟨hp, -⟩ := pred t hk
    omega)

theorem idle3_of (c : Dev nD) (t : Fin (cfgM (F := F)).N) (h : ¬c1At (F := F) c t) : (cfgM (F := F)).idle 3 ((cfgM (F := F)).grid.coords t) = true :=
  (idle3 t).mpr fun e => h ((c1At_iff c t).mpr e)
theorem live3_of (c : Dev nD) (t : Fin (cfgM (F := F)).N) (h : c1At (F := F) c t) : (cfgM (F := F)).idle 3 ((cfgM (F := F)).grid.coords t) = false :=
  Bool.eq_false_iff.mpr fun e => (idle3 t).mp e ((c1At_iff c t).mp h)
theorem noflush3_of (c : Dev nD) (t : Fin (cfgM (F := F)).N) (h : ¬c1At (F := F) c t) : ((cfgM (F := F)).win 3).flush t = false :=
  Bool.eq_false_iff.mpr fun e => h ((c1At_iff c t).mpr ((flush3 t).mp e))

abbrev prev1 (c : Dev nD) (t : Fin (cfgM (F := F)).N) : Vec F S1x512x1 .f32 × Vec F S1x512x1 .f32 × Vec F S1x512x1024 .f32 :=
  (outsAt1 V c (t.val - 1) (Nat.lt_of_le_of_lt (Nat.sub_le _ _) t.isLt)).2

theorem outsAt1_A (c : Dev nD) (t : Fin (cfgM (F := F)).N) (h0 : c0At (F := F) c t) (h1 : c1At (F := F) c t) :
    outsAt1 V c t.val t.isLt = leaves1 (runA1 V c t h0 h1) := by
  obtain ⟨n, hn⟩ := t
  cases n <;> exact (dif_pos h0).trans (dif_pos h1)

theorem outsAt1_B (c : Dev nD) (t : Fin (cfgM (F := F)).N) (h0 : c0At (F := F) c t) (h1 : ¬c1At (F := F) c t) :
    outsAt1 V c t.val t.isLt = leaves1 (runB1 V c t h0 h1) := by
  obtain ⟨n, hn⟩ := t
  cases n <;> exact (dif_pos h0).trans (dif_neg h1)

theorem outsAt1_C (c : Dev nD) (t : Fin (cfgM (F := F)).N) (h0 : ¬c0At (F := F) c t) (h1 : c1At (F := F) c t) :
    outsAt1 V c t.val t.isLt = leaves1 (runC1 V c t h0 h1 (prev1 V c t)) := by
  obtain ⟨n, hn⟩ := t
  cases n with
  | zero => exact absurd (first_c0 c ⟨0, hn⟩ rfl) h0
  | succ n => exact (dif_neg h0).trans (dif_pos h1)

theorem outsAt1_D (c : Dev nD) (t : Fin (cfgM (F := F)).N) (h0 : ¬c0At (F := F) c t) (h1 : ¬c1At (F := F) c t) :
    outsAt1 V c t.val t.isLt = leaves1 (runD1 V c t h0 h1 (prev1 V c t)) := by
  obtain ⟨n, hn⟩ := t
  cases n with
  | zero => exact absurd (first_c0 c ⟨0, hn⟩ rfl) h0
  | succ n => exact (dif_neg h0).trans (dif_neg h1)

def stgRest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

theorem sep_assoc_eq {M : Type} [URA M] (P Q R : sProp M) : iprop((P ∗ Q) ∗ R) = iprop(P ∗ Q ∗ R) :=
  Idealize.SL.BI.Entails.antisymm Idealize.SL.BI.sep_assoc Idealize.SL.BI.sep_assoc'

theorem scopedRest1_split (c : Dev nD) :
    (Pipeline.scopedRest spec1 c : sProp 𝕄)
      = iprop(stgRest1 c ∗ (∃ d, owns (c : Thread nD τ) scM1_0 fullShare d) ∗ (∃ d, owns (c : Thread nD τ) scM1_1 fullShare d) ∗ (∃ d, owns (c : Thread nD τ) scM1_2 fullShare d)) := by
  rw [scopedRest1_eq]
  unfold stgRest1
  simp only [scM1_0, scM1_1, scM1_2, owns_whole, sep_assoc_eq]
  try rfl

theorem PhiA1_eq (c : Dev nD) :
    (Pipeline.ΦA spec1 c : sProp 𝕄)
      = iprop(iprop(stgRest1 c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_split]

theorem PhiT1_eq (c : Dev nD) : (Pipeline.prefHeld pre1 c (fun _ => fullShare) (tblLit (F := F)) : sProp 𝕄) = iprop(tbPt1 c tbM1_0 (tblLit 0) ∗ tbPt1 c tbM1_1 (tblLit 1)) := by
  unfold Pipeline.prefHeld
  rw [show (Finset.univ : Finset (Fin 2)) = insert (0 : Fin 2) {(1 : Fin 2)} from by decide,
    bigSep_insert (by decide), bigSep_singleton]
  rfl

-- the region invariant before position `n`: all the region holds besides its windows, the carried buffers at anything before the first point and at what the point before left afterwards
def PhiS1 (c : Dev nD) : (n : ℕ) → n ≤ (cfgM (F := F)).N → sProp 𝕄
  | 0, _ => iprop(Pipeline.ΦA spec1 c ∗ tbPt1 c tbM1_0 (tblLit 0) ∗ tbPt1 c tbM1_1 (tblLit 1))
  | n + 1, hn => iprop(iprop(iprop(stgRest1 c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) ∗ tbPt1 c tbM1_0 (tblLit 0) ∗ tbPt1 c tbM1_1 (tblLit 1))

theorem PhiS1_zero (c : Dev nD) (n : ℕ) (h : n ≤ (cfgM (F := F)).N) (hz : n = 0) :
    PhiS1 V c n h = iprop(Pipeline.ΦA spec1 c ∗ tbPt1 c tbM1_0 (tblLit 0) ∗ tbPt1 c tbM1_1 (tblLit 1)) := by
  subst hz; rfl

theorem PhiS1_succ (c : Dev nD) (n : ℕ) (hn : n < (cfgM (F := F)).N) :
    PhiS1 V c (n + 1) hn = iprop(iprop(iprop(stgRest1 c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) ∗ tbPt1 c tbM1_0 (tblLit 0) ∗ tbPt1 c tbM1_1 (tblLit 1)) := rfl

theorem PhiS1_pos (c : Dev nD) (n : ℕ) (h : n ≤ (cfgM (F := F)).N) (hz : n ≠ 0) :
    PhiS1 V c n h = iprop(iprop(iprop(stgRest1 c ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) ∗ tbPt1 c tbM1_0 (tblLit 0) ∗ tbPt1 c tbM1_1 (tblLit 1)) := by
  cases n with
  | zero => exact absurd rfl hz
  | succ n => rfl

-- the proof data of the attention launch: the arrays as found; after each point every input window at its block and the output window at `outsAt1`'s first component
def dat1 (c : Dev nD) : Dat τ (Elt F) Unit ℕ (UR sig nD τ) ℕ (cfgM (F := F)) c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin (cfgM (F := F)).W) : (dat1 V c).A w = V c (Pipeline.arrRef spec1 w) := by
  dsimp only [dat1]

theorem PhiS1_castSucc (c : Dev nD) (t : Fin (cfgM (F := F)).N) :
    (dat1 V c).Φ t.castSucc = PhiS1 V c t.val (Nat.le_of_lt t.isLt) := by
  dsimp only [dat1]; simp only [Fin.coe_castSucc]

theorem after1_0 (c : Dev nD) (t : Fin (cfgM (F := F)).N) : (dat1 V c).after 0 t = iblk1 V c 0 t := by dsimp only [dat1]; try rfl
theorem after1_1 (c : Dev nD) (t : Fin (cfgM (F := F)).N) : (dat1 V c).after 1 t = iblk1 V c 1 t := by dsimp only [dat1]; try rfl
theorem after1_2 (c : Dev nD) (t : Fin (cfgM (F := F)).N) : (dat1 V c).after 2 t = iblk1 V c 2 t := by dsimp only [dat1]; try rfl
theorem after1_3 (c : Dev nD) (t : Fin (cfgM (F := F)).N) : (dat1 V c).after 3 t = (outsAt1 V c t.val t.isLt).1 := by dsimp only [dat1]; try rfl

theorem before1_0 (c : Dev nD) (t : Fin (cfgM (F := F)).N) (d) : (dat1 V c).before 0 t d = iblk1 V c 0 t :=
  ((dat1 V c).before_in_eq_fetched 0 rfl (fun i => idle0 i) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin (cfgM (F := F)).N) (d) : (dat1 V c).before 1 t d = iblk1 V c 1 t :=
  ((dat1 V c).before_in_eq_fetched 1 rfl (fun i => idle1' i) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin (cfgM (F := F)).N) (d) : (dat1 V c).before 2 t d = iblk1 V c 2 t :=
  ((dat1 V c).before_in_eq_fetched 2 rfl (fun i => idle2 i) (fun _ _ _ => rfl)
    (fun t => by rw [after1_2]; unfold Dat.blockOf iblk1; rw [A_eq1]; try rfl) t d).trans
    (by unfold Dat.fetched Dat.blockOf iblk1; rw [A_eq1]; try rfl)

abbrev bodyAt1 (t : Fin (cfgM (F := F)).N) : Prog (TpuEff nD τ sig (Elt F) Λ₀ .tc) PUnit :=
  cc1__flash_causal_kernel (grid1.coords t) (Memref.whole main_c) (Memref.isWhole_whole _) (Memref.whole main_c_0) (Memref.isWhole_whole _) (spec1_0.stage ((cfgM (F := F)).slots t 0)) (hstage1_0 (((cfgM (F := F)).slots t 0).cast nbuf1_0)) (spec1_1.stage ((cfgM (F := F)).slots t 1)) (hstage1_1 (((cfgM (F := F)).slots t 1).cast nbuf1_1)) (spec1_2.stage ((cfgM (F := F)).slots t 2)) (hstage1_2 (((cfgM (F := F)).slots t 2).cast nbuf1_2)) (spec1_3.stage ((cfgM (F := F)).slots t 3)) (hstage1_3 (((cfgM (F := F)).slots t 3).cast nbuf1_3)) (Memref.whole cc1_scratch0) (Memref.isWhole_whole _) (Memref.whole cc1_scratch1) (Memref.isWhole_whole _) (Memref.whole cc1_scratch2) (Memref.isWhole_whole _)

def bodyPre1 (c : Dev nD) (t : Fin (cfgM (F := F)).N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin (cfgM (F := F)).N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

-- a buffer written piece by piece, the pieces covering it, is owned at the pieces read back, through any view and over anything
theorem owns_of_writes (c : Dev nD) {sp : Space} {S : Shape} {e : EltTy} (M : Memref sig .tc sp S e) (v' : View sig .tc sp S e) (f : M.view.ty.Contents (Elt F))
    (L : List (View.Piece (Elt F) S e)) (h : ∀ y, ∃ pc ∈ L, y ∈ pc.1.set) :
    (iprop(M.view.loc (c : Thread nD τ) ↦[M.view.set]{fullShare} M.view.writes (Elt F) f L) : sProp 𝕄) ⊢ owns (c : Thread nD τ) M fullShare (v'.read (Elt F) (v'.writes (Elt F) v'.junk L)) := by
  unfold owns
  iintro H
  iexists _; isplitr
  swap; · iexact H
  ipureintro; exact View.read_writes_of_cover _ _ _ _ _ h

-- before any position the invariant holds the three carried buffers each at something
theorem PhiS1_any (c : Dev nD) (n : ℕ) (h : n ≤ (cfgM (F := F)).N) :
    PhiS1 V c n h ⊢ iprop(iprop(iprop(stgRest1 c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) ∗ tbPt1 c tbM1_0 (tblLit 0) ∗ tbPt1 c tbM1_1 (tblLit 1)) := by
  cases n with
  | zero => rw [PhiS1_zero V c 0 h rfl, PhiA1_eq]
  | succ n =>
    rw [PhiS1_succ]
    iintro ⟨⟨⟨HR, H0, H1, H2⟩, Hg⟩, HT⟩
    isplitr [HT]; swap; · iexact HT
    isplitr [Hg]; swap; · iexact Hg
    isplitl [HR]; · iexact HR
    isplitl [H0]; · iexists _; iexact H0
    isplitl [H1]; · iexists _; iexact H1
    iexists _; iexact H2

set_option maxHeartbeats 4800000 in
-- the body at any point: the conditions select the case, whose run takes the carried buffers and the tables from the invariant and returns them at this point's contents; a reset case takes the carried buffers at anything, the other two occur only after the first point
theorem sound_body1 (c : Dev nD) (t : Fin (cfgM (F := F)).N) :
    bodyPre1 V c t ⊢ wp frame (wpE (defs₀ (F := F)) Variants.none c none) Set.univ (bodyAt1 (F := F) t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ, PhiS1_castSucc V c t]
  rw [show (dat1 V c).leavesExact 0 t = owns (c : Thread nD τ) (ms1_0 t) fullShare ((dat1 V c).after 0 t) from by
    unfold Dat.leavesExact; rw [idle0]; rfl, after1_0]
  rw [show (dat1 V c).leavesExact 1 t = owns (c : Thread nD τ) (ms1_1 t) fullShare ((dat1 V c).after 1 t) from by
    unfold Dat.leavesExact; rw [idle1']; rfl, after1_1]
  rw [show (dat1 V c).leavesExact 2 t = owns (c : Thread nD τ) (ms1_2 t) fullShare ((dat1 V c).after 2 t) from by
    unfold Dat.leavesExact; rw [idle2]; rfl, after1_2]
  by_cases h0 : c0At (F := F) c t
  · refine (sep_mono_left (PhiS1_any V c _ _)).trans ?_
    by_cases h1 : c1At (F := F) c t
    · rw [show (dat1 V c).leavesExact 3 t = owns (c : Thread nD τ) (ms1_3 t) fullShare ((dat1 V c).after 3 t) from by
        unfold Dat.leavesExact; rw [live3_of c t h1]; rfl, after1_3, outsAt1_A V c t h0 h1]
      unfold leaves1; (try dsimp only)
      iintro ⟨⟨⟨⟨HR, HS0, HS1, HS2⟩, Hg⟩, HT0, HT1⟩, Ho, ⟨%d0, H0⟩, ⟨%d1, H1⟩, ⟨%d2, H2⟩, ⟨%d3, H3⟩⟩
      iapply ((runA1 V c t h0 h1).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HT0]; · iexact HT0
      isplitl [HT1]; · iexact HT1
      iintro ⟨H0, H1, H2, ⟨%e3, H3⟩, ⟨%es0, HS0⟩, ⟨%es1, HS1⟩, ⟨%es2, HS2⟩, HT0, HT1⟩
      isplitl [HR HS0 HS1 HS2 Hg HT0 HT1]
      · isplitl [HR HS0 HS1 HS2 Hg]
        · isplitl [HR HS0 HS1 HS2]
          · isplitl [HR]; · iexact HR
            isplitl [HS0]; · iapply (owns_of_writes c _ _ _ _ (cover1_A c _ _ _ _ _ _ _ _ _ _ _ _ _ _ _ _ _ _ _ _ _ _ _).2.1); iexact HS0
            isplitl [HS1]; · iapply (owns_of_writes c _ _ _ _ (cover1_A c _ _ _ _ _ _ _ _ _ _ _ _ _ _ _ _ _ _ _ _ _ _ _).2.2.1); iexact HS1
            iapply (owns_of_writes c _ _ _ _ (cover1_A c _ _ _ _ _ _ _ _ _ _ _ _ _ _ _ _ _ _ _ _ _ _ _).2.2.2); iexact HS2
          iexact Hg
        isplitl [HT0]; · iexact HT0
        iexact HT1
      isplitl [Ho]; · iexact Ho
      isplitl [H0]; · iexact H0
      isplitl [H1]; · iexact H1
      isplitl [H2]; · iexact H2
      iapply (owns_of_writes c _ _ _ _ (cover1_A c _ _ _ _ _ _ _ _ _ _ _ _ _ _ _ _ _ _ _ _ _ _ _).1); iexact H3
    · rw [Dat.leavesExact_idle (dat1 V c) 3 t (idle3_of c t h1) (noflush3_of c t h1), outsAt1_B V c t h0 h1]
      unfold leaves1; (try dsimp only)
      iintro ⟨⟨⟨⟨HR, HS0, HS1, HS2⟩, Hg⟩, HT0, HT1⟩, Ho, ⟨%d0, H0⟩, ⟨%d1, H1⟩, ⟨%d2, H2⟩, ⟨%d3, H3⟩⟩
      iapply ((runB1 V c t h0 h1).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HT0]; · iexact HT0
      isplitl [HT1]; · iexact HT1
      iintro ⟨H0, H1, H2, H3, ⟨%es0, HS0⟩, ⟨%es1, HS1⟩, ⟨%es2, HS2⟩, HT0, HT1⟩
      isplitl [HR HS0 HS1 HS2 Hg HT0 HT1]
      · isplitl [HR HS0 HS1 HS2 Hg]
        · isplitl [HR HS0 HS1 HS2]
          · isplitl [HR]; · iexact HR
            isplitl [HS0]; · iapply (owns_of_writes c _ _ _ _ (cover1_B c _ _ _ _ _ _ _ _ _ _ _ _ _ _ _ _ _ _ _ _ _ _ _).1); iexact HS0
            isplitl [HS1]; · iapply (owns_of_writes c _ _ _ _ (cover1_B c _ _ _ _ _ _ _ _ _ _ _ _ _ _ _ _ _ _ _ _ _ _ _).2.1); iexact HS1
            iapply (owns_of_writes c _ _ _ _ (cover1_B c _ _ _ _ _ _ _ _ _ _ _ _ _ _ _ _ _ _ _ _ _ _ _).2.2); iexact HS2
          iexact Hg
        isplitl [HT0]; · iexact HT0
        iexact HT1
      isplitl [Ho]; · iexact Ho
      isplitl [H0]; · iexact H0
      isplitl [H1]; · iexact H1
      isplitl [H2]; · iexact H2
      iexists _; iexact H3
  · rw [PhiS1_pos V c _ _ (fun hz => h0 (first_c0 c t hz))]
    by_cases h1 : c1At (F := F) c t
    · rw [show (dat1 V c).leavesExact 3 t = owns (c : Thread nD τ) (ms1_3 t) fullShare ((dat1 V c).after 3 t) from by
        unfold Dat.leavesExact; rw [live3_of c t h1]; rfl, after1_3, outsAt1_C V c t h0 h1]
      unfold leaves1; (try dsimp only)
      iintro ⟨⟨⟨⟨HR, HS0, HS1, HS2⟩, Hg⟩, HT0, HT1⟩, Ho, ⟨%d0, H0⟩, ⟨%d1, H1⟩, ⟨%d2, H2⟩, ⟨%d3, H3⟩⟩
      iapply ((runC1 V c t h0 h1 _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HT0]; · iexact HT0
      isplitl [HT1]; · iexact HT1
      iintro ⟨H0, H1, H2, ⟨%e3, H3⟩, ⟨%es0, HS0⟩, ⟨%es1, HS1⟩, ⟨%es2, HS2⟩, HT0, HT1⟩
      isplitl [HR HS0 HS1 HS2 Hg HT0 HT1]
      · isplitl [HR HS0 HS1 HS2 Hg]
        · isplitl [HR HS0 HS1 HS2]
          · isplitl [HR]; · iexact HR
            isplitl [HS0]; · iapply (owns_of_writes c _ _ _ _ (cover1_C c _ _ _ _ _ _ _ _ _ _ _ _ _ _ _ _ _ _ _ _ _ _ _ _ _ _).2.1); iexact HS0
            isplitl [HS1]; · iapply (owns_of_writes c _ _ _ _ (cover1_C c _ _ _ _ _ _ _ _ _ _ _ _ _ _ _ _ _ _ _ _ _ _ _ _ _ _).2.2.1); iexact HS1
            iapply (owns_of_writes c _ _ _ _ (cover1_C c _ _ _ _ _ _ _ _ _ _ _ _ _ _ _ _ _ _ _ _ _ _ _ _ _ _).2.2.2); iexact HS2
          iexact Hg
        isplitl [HT0]; · iexact HT0
        iexact HT1
      isplitl [Ho]; · iexact Ho
      isplitl [H0]; · iexact H0
      isplitl [H1]; · iexact H1
      isplitl [H2]; · iexact H2
      iapply (owns_of_writes c _ _ _ _ (cover1_C c _ _ _ _ _ _ _ _ _ _ _ _ _ _ _ _ _ _ _ _ _ _ _ _ _ _).1); iexact H3
    · rw [Dat.leavesExact_idle (dat1 V c) 3 t (idle3_of c t h1) (noflush3_of c t h1), outsAt1_D V c t h0 h1]
      unfold leaves1; (try dsimp only)
      iintro ⟨⟨⟨⟨HR, HS0, HS1, HS2⟩, Hg⟩, HT0, HT1⟩, Ho, ⟨%d0, H0⟩, ⟨%d1, H1⟩, ⟨%d2, H2⟩, ⟨%d3, H3⟩⟩
      iapply ((runD1 V c t h0 h1 _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HT0]; · iexact HT0
      isplitl [HT1]; · iexact HT1
      iintro ⟨H0, H1, H2, H3, ⟨%es0, HS0⟩, ⟨%es1, HS1⟩, ⟨%es2, HS2⟩, HT0, HT1⟩
      isplitl [HR HS0 HS1 HS2 Hg HT0 HT1]
      · isplitl [HR HS0 HS1 HS2 Hg]
        · isplitl [HR HS0 HS1 HS2]
          · isplitl [HR]; · iexact HR
            isplitl [HS0]; · iapply (owns_of_writes c _ _ _ _ (cover1_D c _ _ _ _ _ _ _ _ _ _ _ _ _ _ _ _ _ _ _ _ _ _ _ _ _ _).1); iexact HS0
            isplitl [HS1]; · iapply (owns_of_writes c _ _ _ _ (cover1_D c _ _ _ _ _ _ _ _ _ _ _ _ _ _ _ _ _ _ _ _ _ _ _ _ _ _).2.1); iexact HS1
            iapply (owns_of_writes c _ _ _ _ (cover1_D c _ _ _ _ _ _ _ _ _ _ _ _ _ _ _ _ _ _ _ _ _ _ _ _ _ _).2.2); iexact HS2
          iexact Hg
        isplitl [HT0]; · iexact HT0
        iexact HT1
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : iprop((∃ r, prngReg c r) ∗ Pipeline.prefHeld pre1 c (fun _ => fullShare) (tblLit (F := F)) ∗ Pipeline.scopedRest spec1 c) ⊢ (dat1 V c).Φ 0 := by
  rw [show (dat1 V c).Φ 0 = PhiS1 V c 0 (Nat.zero_le _) from rfl, PhiS1_zero V c 0 _ rfl, PhiT1_eq]
  unfold Pipeline.ΦA
  iintro ⟨Hg, ⟨Ht0, Ht1⟩, Hs⟩
  isplitl [Hs Hg]
  · isplitl [Hs]; · iexact Hs
    iexact Hg
  isplitl [Ht0]; · iexact Ht0
  iexact Ht1

-- after the last point the invariant gives back what the region was handed, the carried contents forgotten
theorem hout1 (c : Dev nD) : (dat1 V c).Φ (Fin.last _) ⊢ iprop(((∃ r, prngReg c r) ∗ Pipeline.prefHeld pre1 c (fun _ => fullShare) (tblLit (F := F))) ∗ Pipeline.scopedRest spec1 c) := by
  rw [PhiT1_eq, scopedRest1_split]
  refine (show (dat1 V c).Φ (Fin.last _) ⊢ _ from PhiS1_any V c (Fin.last (cfgM (F := F)).N).val (Nat.le_of_lt_succ (Fin.last _).isLt)).trans ?_
  iintro ⟨⟨Hs, Hg⟩, Ht⟩
  isplitr [Hs]; swap; · iexact Hs
  isplitl [Hg]; · iexact Hg
  iexact Ht

end Cert.KernelIdeal.Hand

end
-- ==== Proof.TablesAtEntry.lean ====
import proofs.«407511_j23811298689314_3_alg».proof.Proof.Fold
import proofs.«407511_j23811298689314_3_alg».proof.Proof.Sched
import Idealize.ShloMosaic.Lib.StableHlo.Run

-- the two schedule tables still hold at the attention launch the literal words written at the very beginning: nothing in between writes them
set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F] [Named F]

variable (m : (ℓ : Loc nD τ sig) → Buf (Elt F) ℓ) (ρ : Dev nD → PrngReg)

theorem V3_main_c (c : Dev nD) : V3 m ρ c main_c = fun i => lit0 (S2x18.rowMajor i) := by
  have e3 : W3 m ρ c (Proc.devRef .tc main_c) = W2 m ρ c (Proc.devRef .tc main_c) :=
    StableHlo.after_of_writes_sub hostOps1 _ hostOps1_writes (by decide)
  have e2 : W2 m ρ c (Proc.devRef .tc main_c) = W1 m ρ c (Proc.devRef .tc main_c) :=
    W2_of_ne m ρ c main_c (by decide)
  have e1 : W1 m ρ c (Proc.devRef .tc main_c) = fun i => lit0 (S2x18.rowMajor i) := by
    show StableHlo.after (hostOps0 (F := F)) _ (Proc.devRef .tc main_c) = _
    after_results
    rfl
  exact e3.trans (e2.trans e1)

theorem V3_main_c_0 (c : Dev nD) : V3 m ρ c main_c_0 = fun i => lit1 (S2x18.rowMajor i) := by
  have e3 : W3 m ρ c (Proc.devRef .tc main_c_0) = W2 m ρ c (Proc.devRef .tc main_c_0) :=
    StableHlo.after_of_writes_sub hostOps1 _ hostOps1_writes (by decide)
  have e2 : W2 m ρ c (Proc.devRef .tc main_c_0) = W1 m ρ c (Proc.devRef .tc main_c_0) :=
    W2_of_ne m ρ c main_c_0 (by decide)
  have e1 : W1 m ρ c (Proc.devRef .tc main_c_0) = fun i => lit1 (S2x18.rowMajor i) := by
    show StableHlo.after (hostOps0 (F := F)) _ (Proc.devRef .tc main_c_0) = _
    after_results
    rfl
  exact e3.trans (e2.trans e1)

theorem V3_pre (c : Dev nD) : (fun k => V3 m ρ c (pre1.ref k)) = (tblLit (F := F)) := by
  funext k
  match k with
  | ⟨0, _⟩ => exact V3_main_c m ρ c
  | ⟨1, _⟩ => exact V3_main_c_0 m ρ c
  | ⟨_ + 2, h⟩ => exact absurd h (Nat.not_lt.2 (Nat.le_add_left _ _))

end Cert.KernelIdeal.Hand

end
-- ==== Proof.R0Bits.lean ====
import proofs.«407511_j23811298689314_3_alg».proof.Proof.Gen.Kernel.Launch
import proofs.«407511_j23811298689314_3_alg».proof.Proof.Gen.Kernel.Skeleton
import proofs.«407511_j23811298689314_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the projection launch at any contents `V` of the buffers on entry: each point multiplies its row block by the three weight matrices side by side and stores three blocks
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0

def out0_2 (x0 : Vec F S512x1024 .bf16) (x1 : Vec F S1024x3072 .bf16) : Vec F S512x1024 .bf16 :=
  View.canon [⟨r0_0, k0_pay2 (View.ld x0 r0_0) (View.ld x1 r0_1)⟩]

def out0_3 (x0 : Vec F S512x1024 .bf16) (x1 : Vec F S1024x3072 .bf16) : Vec F S512x1024 .bf16 :=
  View.canon [⟨r0_0, k0_pay3 (View.ld x0 r0_0) (View.ld x1 r0_1)⟩]

def out0_4 (x0 : Vec F S512x1024 .bf16) (x1 : Vec F S1024x3072 .bf16) : Vec F S512x1024 .bf16 :=
  View.canon [⟨r0_0, k0_pay4 (View.ld x0 r0_0) (View.ld x1 r0_1)⟩]

theorem cover0 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

set_option maxHeartbeats 1000000 in

theorem sound_kernel0 (c : Dev nD) (E : Set ℕ) (i : grid0.Coords)
    (arg1 : Memref sig .tc .vmem S512x1024 .bf16) (harg1 : arg1.IsWhole) (arg2 : Memref sig .tc .vmem S1024x3072 .bf16) (harg2 : arg2.IsWhole)
    (arg3 : Memref sig .tc .vmem S512x1024 .bf16) (harg3 : arg3.IsWhole) (arg4 : Memref sig .tc .vmem S512x1024 .bf16) (harg4 : arg4.IsWhole)
    (arg5 : Memref sig .tc .vmem S512x1024 .bf16) (harg5 : arg5.IsWhole)
    (x0 : Vec F S512x1024 .bf16) (x1 : Vec F S1024x3072 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E (cc0__qkv_matmul_kernel i arg1 harg1 arg2 harg2 arg3 harg3 arg4 harg4 arg5 harg5) K := by
  simp only [cc0__qkv_matmul_kernel_eq_skeleton]; unfold cc0__qkv_matmul_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.R1RunsBits.lean ====
import proofs.«407511_j23811298689314_3_alg».proof.Proof.Gen.Kernel.Launch
import proofs.«407511_j23811298689314_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev tbM1_0 : Memref sig .tc .smem S2x18 .i32 := Memref.whole main_c
abbrev htbM1_0 : tbM1_0.IsWhole := Memref.isWhole_whole _
abbrev tbM1_1 : Memref sig .tc .smem S2x18 .i32 := Memref.whole main_c_0
abbrev htbM1_1 : tbM1_1.IsWhole := Memref.isWhole_whole _

abbrev TbBuf1 (c : Dev nD) {S : Shape} {e : EltTy} (M : Memref sig .tc .smem S e) : Type := Buf (Elt F) (M.view.loc (c : Thread nD τ))
abbrev tbPt1 (c : Dev nD) {S : Shape} {e : EltTy} (M : Memref sig .tc .smem S e) (f : TbBuf1 (F := F) c M) : sProp 𝕄 :=
  M.view.loc (c : Thread nD τ) ↦{fullShare} f

-- the words the body loads from the two tables at point `i`: the query block `qi` and the key block `ki`
abbrev w1_0 (c : Dev nD) (i : grid1.Coords) (xt0 : TbBuf1 (F := F) c tbM1_0) : BitVec 32 :=
  tbM1_0.view.readAt (Elt F) (Rect.unit (s := S2x18) (k1_off1 i) S1x1.size (k1_off1_inb i)).toLoadRect xt0 (Shape.Idx.first (numel1_S1x1.symm ▸ Nat.one_pos))
abbrev w1_1 (c : Dev nD) (i : grid1.Coords) (xt1 : TbBuf1 (F := F) c tbM1_1) : BitVec 32 :=
  tbM1_1.view.readAt (Elt F) (Rect.unit (s := S2x18) (k1_off1 i) S1x1.size (k1_off1_inb i)).toLoadRect xt1 (Shape.Idx.first (numel1_S1x1.symm ▸ Nat.one_pos))

-- the body's branch conditions: `ki = 0`, `ki = qi`, `ki ≠ qi` (the fourth is the second again)
abbrev cond1_0 (v5 : BitVec 32) : Prop := Scalar.cmpi .ne (Scalar.extui (Scalar.cmpi .eq v5 0#32)) 0#32 = 1#1
abbrev cond1_1 (v2 v5 : BitVec 32) : Prop := Scalar.cmpi .ne (Scalar.extui (Scalar.cmpi .eq v5 v2)) 0#32 = 1#1
abbrev cond1_2 (v2 v5 : BitVec 32) : Prop := Scalar.cmpi .ne (Scalar.extui (Scalar.cmpi .ne v5 v2)) 0#32 = 1#1

abbrev scM1_0 : Memref sig .tc .vmem S1x512x1 .f32 := Memref.whole cc1_scratch0
abbrev scM1_1 : Memref sig .tc .vmem S1x512x1 .f32 := Memref.whole cc1_scratch1
abbrev scM1_2 : Memref sig .tc .vmem S1x512x1024 .f32 := Memref.whole cc1_scratch2
abbrev VS1_0 : View sig .tc .vmem S1x512x1 .f32 := scM1_0.view
abbrev VS1_1 : View sig .tc .vmem S1x512x1 .f32 := scM1_1.view
abbrev VS1_2 : View sig .tc .vmem S1x512x1024 .f32 := scM1_2.view
abbrev VO1_3 : View sig .tc .vmem S1x512x1024 .f32 := (Memref.whole cc1_stg3_0 : Memref sig .tc .vmem S1x512x1024 .f32).view

variable (c : Dev nD) (i : grid1.Coords)
  (arg5 : Memref sig .tc .vmem S1x512x1024 .bf16) (harg5 : arg5.IsWhole) (arg6 : Memref sig .tc .vmem S1x512x1024 .bf16) (harg6 : arg6.IsWhole)
  (arg7 : Memref sig .tc .vmem S1x512x1024 .bf16) (harg7 : arg7.IsWhole) (arg8 : Memref sig .tc .vmem S1x512x1024 .f32) (harg8 : arg8.IsWhole)
  (arg9 : Memref sig .tc .vmem S1x512x1 .f32) (harg9 : arg9.IsWhole) (arg10 : Memref sig .tc .vmem S1x512x1 .f32) (harg10 : arg10.IsWhole)
  (arg11 : Memref sig .tc .vmem S1x512x1024 .f32) (harg11 : arg11.IsWhole)
  (x0 x1 x2 : Vec F S1x512x1024 .bf16) (xt0 : TbBuf1 (F := F) c tbM1_0) (xt1 : TbBuf1 (F := F) c tbM1_1)

-- the lists of written pieces a run of the body finds for the output's buffer and the three scratch buffers, with what the run proves of them
abbrev Run1 (P : List (View.Piece (Elt F) S1x512x1024 .f32) → List (View.Piece (Elt F) S1x512x1 .f32) → List (View.Piece (Elt F) S1x512x1 .f32) → List (View.Piece (Elt F) S1x512x1024 .f32) → Prop) :=
  Σ' (L3 : List (View.Piece (Elt F) S1x512x1024 .f32)) (LS0 : List (View.Piece (Elt F) S1x512x1 .f32)) (LS1 : List (View.Piece (Elt F) S1x512x1 .f32)), { LS2 : List (View.Piece (Elt F) S1x512x1024 .f32) // P L3 LS0 LS1 LS2 }

variable {P : List (View.Piece (Elt F) S1x512x1024 .f32) → List (View.Piece (Elt F) S1x512x1 .f32) → List (View.Piece (Elt F) S1x512x1 .f32) → List (View.Piece (Elt F) S1x512x1024 .f32) → Prop}

-- what a run leaves in the output's buffer, the running maximum, the running sum and the accumulator: its pieces read back over junk
def leaves1 (r : Run1 (F := F) P) : Vec F S1x512x1024 .f32 × Vec F S1x512x1 .f32 × Vec F S1x512x1 .f32 × Vec F S1x512x1024 .f32 :=
  (VO1_3.read (Elt F) (VO1_3.writes (Elt F) VO1_3.junk r.1), VS1_0.read (Elt F) (VS1_0.writes (Elt F) VS1_0.junk r.2.1),
    VS1_1.read (Elt F) (VS1_1.writes (Elt F) VS1_1.junk r.2.2.1), VS1_2.read (Elt F) (VS1_2.writes (Elt F) VS1_2.junk r.2.2.2.1))

-- a run's pieces for each scratch buffer cover it
abbrev SCovers1 (r : Run1 (F := F) P) : Prop :=
  (∀ y, ∃ pc ∈ r.2.1, y ∈ pc.1.set) ∧ (∀ y, ∃ pc ∈ r.2.2.1, y ∈ pc.1.set) ∧ (∀ y, ∃ pc ∈ r.2.2.2.1, y ∈ pc.1.set)

section A
variable (hc0 : cond1_0 (w1_1 c i xt1)) (hc1 : cond1_1 (w1_0 c i xt0) (w1_1 c i xt1)) (hc2 : ¬cond1_2 (w1_0 c i xt0) (w1_1 c i xt1))
include hc0 hc1 hc2

set_option maxHeartbeats 1000000 in
-- `ki = 0`, `ki = qi`: reset, masked update, output; the output's buffer and the scratch start at anything
noncomputable def kernelRun1_A : Run1 (F := F) fun L3 LS0 LS1 LS2 =>
      ∀ (E : Set ℕ) (K : PUnit → sProp 𝕄),
        iprop(owns (c : Thread nD τ) arg5 fullShare x0 ∗ owns (c : Thread nD τ) arg6 fullShare x1 ∗ owns (c : Thread nD τ) arg7 fullShare x2 ∗ (∃ d, owns (c : Thread nD τ) arg8 fullShare d)
            ∗ (∃ d, owns (c : Thread nD τ) arg9 fullShare d) ∗ (∃ d, owns (c : Thread nD τ) arg10 fullShare d) ∗ (∃ d, owns (c : Thread nD τ) arg11 fullShare d) ∗ tbPt1 c tbM1_0 xt0 ∗ tbPt1 c tbM1_1 xt1
            ∗ (iprop(owns (c : Thread nD τ) arg5 fullShare x0 ∗ owns (c : Thread nD τ) arg6 fullShare x1 ∗ owns (c : Thread nD τ) arg7 fullShare x2 ∗ (∃ f, arg8.view.loc (c : Thread nD τ) ↦[arg8.view.set]{fullShare} arg8.view.writes (Elt F) f L3)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)
                ∗ tbPt1 c tbM1_0 xt0 ∗ tbPt1 c tbM1_1 xt1) -∗ K ⟨⟩))
          ⊢ wp frame (wpE (defs₀ (F := F)) Variants.none c none) E (cc1__flash_causal_kernel i tbM1_0 htbM1_0 tbM1_1 htbM1_1 arg5 harg5 arg6 harg6 arg7 harg7 arg8 harg8 arg9 harg9 arg10 harg10 arg11 harg11) K := by
  refine ⟨?_, ?_, ?_, ?_, fun E K => ?run⟩
  case run =>
    simp only [cc1__flash_causal_kernel_eq_skeleton]; unfold cc1__flash_causal_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, HT0, HT1, Hk⟩
    obtain rfl := harg5.eq_unread hf0; obtain rfl := harg6.eq_unread hf1; obtain rfl := harg7.eq_unread hf2
    sl_exec (disch := first | sl_exact hc0 | sl_exact hc1 | sl_exact hc2)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]; · iexists _; iexact H3
    isplitl [HS0]; · iexists _; iexact HS0
    isplitl [HS1]; · iexists _; iexact HS1
    isplitl [HS2]; · iexists _; iexact HS2
    isplitl [HT0]; · iexact HT0
    iexact HT1

theorem cover1_A : (∀ y, ∃ pc ∈ (kernelRun1_A c i arg5 harg5 arg6 harg6 arg7 harg7 arg8 harg8 arg9 harg9 arg10 harg10 arg11 harg11 x0 x1 x2 xt0 xt1 hc0 hc1 hc2).1, y ∈ pc.1.set) ∧ SCovers1 (kernelRun1_A c i arg5 harg5 arg6 harg6 arg7 harg7 arg8 harg8 arg9 harg9 arg10 harg10 arg11 harg11 x0 x1 x2 xt0 xt1 hc0 hc1 hc2) :=
  ⟨View.cover_of_tiledL _ S1x512x1024.size (by sl_kernel_rfl), View.cover_of_tiledL _ S1x512x1.size (by sl_kernel_rfl),
    View.cover_of_tiledL _ S1x512x1.size (by sl_kernel_rfl), View.cover_of_tiledL _ S1x512x1024.size (by sl_kernel_rfl)⟩

end A

section B
variable (hc0 : cond1_0 (w1_1 c i xt1)) (hc1 : ¬cond1_1 (w1_0 c i xt0) (w1_1 c i xt1)) (hc2 : cond1_2 (w1_0 c i xt0) (w1_1 c i xt1))
include hc0 hc1 hc2

set_option maxHeartbeats 1000000 in
-- `ki = 0`, `ki ≠ qi`: reset, plain update; the output's buffer is left as found, the scratch starts at anything
noncomputable def kernelRun1_B : Run1 (F := F) fun L3 LS0 LS1 LS2 =>
      ∀ (xi3 : Vec F S1x512x1024 .f32) (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare xi3
            ∗ (∃ d, owns (c : Thread nD τ) arg9 fullShare d) ∗ (∃ d, owns (c : Thread nD τ) arg10 fullShare d) ∗ (∃ d, owns (c : Thread nD τ) arg11 fullShare d) ∗ tbPt1 c tbM1_0 xt0 ∗ tbPt1 c tbM1_1 xt1
            ∗ (iprop(owns (c : Thread nD τ) arg5 fullShare x0 ∗ owns (c : Thread nD τ) arg6 fullShare x1 ∗ owns (c : Thread nD τ) arg7 fullShare x2 ∗ owns (c : Thread nD τ) arg8 fullShare xi3
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)
                ∗ tbPt1 c tbM1_0 xt0 ∗ tbPt1 c tbM1_1 xt1) -∗ K ⟨⟩))
          ⊢ wp frame (wpE (defs₀ (F := F)) Variants.none c none) E (cc1__flash_causal_kernel i tbM1_0 htbM1_0 tbM1_1 htbM1_1 arg5 harg5 arg6 harg6 arg7 harg7 arg8 harg8 arg9 harg9 arg10 harg10 arg11 harg11) K := by
  refine ⟨[], ?_, ?_, ?_, fun xi3 E K => ?run⟩
  case run =>
    simp only [cc1__flash_causal_kernel_eq_skeleton]; unfold cc1__flash_causal_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, HT0, HT1, Hk⟩
    obtain rfl := harg5.eq_unread hf0; obtain rfl := harg6.eq_unread hf1; obtain rfl := harg7.eq_unread hf2; obtain rfl := harg8.eq_unread hf3
    sl_exec (disch := first | sl_exact hc0 | sl_exact hc1 | sl_exact hc2)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [HS0]; · iexists _; iexact HS0
    isplitl [HS1]; · iexists _; iexact HS1
    isplitl [HS2]; · iexists _; iexact HS2
    isplitl [HT0]; · iexact HT0
    iexact HT1

theorem cover1_B : SCovers1 (kernelRun1_B c i arg5 harg5 arg6 harg6 arg7 harg7 arg8 harg8 arg9 harg9 arg10 harg10 arg11 harg11 x0 x1 x2 xt0 xt1 hc0 hc1 hc2) :=
  ⟨View.cover_of_tiledL _ S1x512x1.size (by sl_kernel_rfl), View.cover_of_tiledL _ S1x512x1.size (by sl_kernel_rfl), View.cover_of_tiledL _ S1x512x1024.size (by sl_kernel_rfl)⟩

end B

section C
variable (hc0 : ¬cond1_0 (w1_1 c i xt1)) (hc1 : cond1_1 (w1_0 c i xt0) (w1_1 c i xt1)) (hc2 : ¬cond1_2 (w1_0 c i xt0) (w1_1 c i xt1))
  (xs0 xs1 : Vec F S1x512x1 .f32) (xs2 : Vec F S1x512x1024 .f32)
include hc0 hc1 hc2

set_option maxHeartbeats 1000000 in
-- `ki ≠ 0`, `ki = qi`: masked update, output; the scratch starts at what the point before left, the output's buffer at anything
noncomputable def kernelRun1_C : Run1 (F := F) fun L3 LS0 LS1 LS2 =>
      ∀ (E : Set ℕ) (K : PUnit → sProp 𝕄),
        iprop(owns (c : Thread nD τ) arg5 fullShare x0 ∗ owns (c : Thread nD τ) arg6 fullShare x1 ∗ owns (c : Thread nD τ) arg7 fullShare x2 ∗ (∃ d, owns (c : Thread nD τ) arg8 fullShare d)
            ∗ owns (c : Thread nD τ) arg9 fullShare xs0 ∗ owns (c : Thread nD τ) arg10 fullShare xs1 ∗ owns (c : Thread nD τ) arg11 fullShare xs2 ∗ tbPt1 c tbM1_0 xt0 ∗ tbPt1 c tbM1_1 xt1
            ∗ (iprop(owns (c : Thread nD τ) arg5 fullShare x0 ∗ owns (c : Thread nD τ) arg6 fullShare x1 ∗ owns (c : Thread nD τ) arg7 fullShare x2 ∗ (∃ f, arg8.view.loc (c : Thread nD τ) ↦[arg8.view.set]{fullShare} arg8.view.writes (Elt F) f L3)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)
                ∗ tbPt1 c tbM1_0 xt0 ∗ tbPt1 c tbM1_1 xt1) -∗ K ⟨⟩))
          ⊢ wp frame (wpE (defs₀ (F := F)) Variants.none c none) E (cc1__flash_causal_kernel i tbM1_0 htbM1_0 tbM1_1 htbM1_1 arg5 harg5 arg6 harg6 arg7 harg7 arg8 harg8 arg9 harg9 arg10 harg10 arg11 harg11) K := by
  refine ⟨?_, ?_, ?_, ?_, fun E K => ?run⟩
  case run =>
    simp only [cc1__flash_causal_kernel_eq_skeleton]; unfold cc1__flash_causal_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, HT0, HT1, Hk⟩
    obtain rfl := harg5.eq_unread hf0; obtain rfl := harg6.eq_unread hf1; obtain rfl := harg7.eq_unread hf2
    obtain rfl := harg9.eq_unread hfs0; obtain rfl := harg10.eq_unread hfs1; obtain rfl := harg11.eq_unread hfs2
    sl_exec (disch := first | sl_exact hc0 | sl_exact hc1 | sl_exact hc2)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]; · iexists _; iexact H3
    isplitl [HS0]; · iexists _; iexact HS0
    isplitl [HS1]; · iexists _; iexact HS1
    isplitl [HS2]; · iexists _; iexact HS2
    isplitl [HT0]; · iexact HT0
    iexact HT1

theorem cover1_C : (∀ y, ∃ pc ∈ (kernelRun1_C c i arg5 harg5 arg6 harg6 arg7 harg7 arg8 harg8 arg9 harg9 arg10 harg10 arg11 harg11 x0 x1 x2 xt0 xt1 hc0 hc1 hc2 xs0 xs1 xs2).1, y ∈ pc.1.set) ∧ SCovers1 (kernelRun1_C c i arg5 harg5 arg6 harg6 arg7 harg7 arg8 harg8 arg9 harg9 arg10 harg10 arg11 harg11 x0 x1 x2 xt0 xt1 hc0 hc1 hc2 xs0 xs1 xs2) :=
  ⟨View.cover_of_tiledL _ S1x512x1024.size (by sl_kernel_rfl), View.cover_of_tiledL _ S1x512x1.size (by sl_kernel_rfl),
    View.cover_of_tiledL _ S1x512x1.size (by sl_kernel_rfl), View.cover_of_tiledL _ S1x512x1024.size (by sl_kernel_rfl)⟩

end C

section D
variable (hc0 : ¬cond1_0 (w1_1 c i xt1)) (hc1 : ¬cond1_1 (w1_0 c i xt0) (w1_1 c i xt1)) (hc2 : cond1_2 (w1_0 c i xt0) (w1_1 c i xt1))
  (xs0 xs1 : Vec F S1x512x1 .f32) (xs2 : Vec F S1x512x1024 .f32)
include hc0 hc1 hc2

set_option maxHeartbeats 1000000 in
-- `ki ≠ 0`, `ki ≠ qi`: plain update; the scratch starts at what the point before left, the output's buffer is left as found
noncomputable def kernelRun1_D : Run1 (F := F) fun L3 LS0 LS1 LS2 =>
      ∀ (xi3 : Vec F S1x512x1024 .f32) (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare xi3
            ∗ owns (c : Thread nD τ) arg9 fullShare xs0 ∗ owns (c : Thread nD τ) arg10 fullShare xs1 ∗ owns (c : Thread nD τ) arg11 fullShare xs2 ∗ tbPt1 c tbM1_0 xt0 ∗ tbPt1 c tbM1_1 xt1
            ∗ (iprop(owns (c : Thread nD τ) arg5 fullShare x0 ∗ owns (c : Thread nD τ) arg6 fullShare x1 ∗ owns (c : Thread nD τ) arg7 fullShare x2 ∗ owns (c : Thread nD τ) arg8 fullShare xi3
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)
                ∗ tbPt1 c tbM1_0 xt0 ∗ tbPt1 c tbM1_1 xt1) -∗ K ⟨⟩))
          ⊢ wp frame (wpE (defs₀ (F := F)) Variants.none c none) E (cc1__flash_causal_kernel i tbM1_0 htbM1_0 tbM1_1 htbM1_1 arg5 harg5 arg6 harg6 arg7 harg7 arg8 harg8 arg9 harg9 arg10 harg10 arg11 harg11) K := by
  refine ⟨[], ?_, ?_, ?_, fun xi3 E K => ?run⟩
  case run =>
    simp only [cc1__flash_causal_kernel_eq_skeleton]; unfold cc1__flash_causal_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, HT0, HT1, Hk⟩
    obtain rfl := harg5.eq_unread hf0; obtain rfl := harg6.eq_unread hf1; obtain rfl := harg7.eq_unread hf2; obtain rfl := harg8.eq_unread hf3
    obtain rfl := harg9.eq_unread hfs0; obtain rfl := harg10.eq_unread hfs1; obtain rfl := harg11.eq_unread hfs2
    sl_exec (disch := first | sl_exact hc0 | sl_exact hc1 | sl_exact hc2)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [HS0]; · iexists _; iexact HS0
    isplitl [HS1]; · iexists _; iexact HS1
    isplitl [HS2]; · iexists _; iexact HS2
    isplitl [HT0]; · iexact HT0
    iexact HT1

theorem cover1_D : SCovers1 (kernelRun1_D c i arg5 harg5 arg6 harg6 arg7 harg7 arg8 harg8 arg9 harg9 arg10 harg10 arg11 harg11 x0 x1 x2 xt0 xt1 hc0 hc1 hc2 xs0 xs1 xs2) :=
  ⟨View.cover_of_tiledL _ S1x512x1.size (by sl_kernel_rfl), View.cover_of_tiledL _ S1x512x1.size (by sl_kernel_rfl), View.cover_of_tiledL _ S1x512x1024.size (by sl_kernel_rfl)⟩

end D

end Cert.Kernel.Hand

end
-- ==== Proof.SchedBits.lean ====
import proofs.«407511_j23811298689314_3_alg».proof.Proof.Gen.Kernel.Launch
import Idealize.ShloMosaic.Lib.Pipeline.Kit
import Idealize.ShloMosaic.Lib.Pipeline.Frame

/- The triangular schedule of the attention launch: at point (core, batch, step) two table words name the query block `qi` and the key
   block `ki ≤ qi`; a point with `ki ≠ 0` follows the point with the same batch and query block and key block `ki - 1`; the output block
   (batch, qi) is written back exactly at `ki = qi`, and these blocks cover the output array. -/

noncomputable section

namespace Cert.Kernel.Hand

open Cert.Kernel Cert.Kernel.Gen
open Idealize.ShloMosaic Idealize.ShloMosaic.TcCoe
open Idealize.SL Idealize.SL.Sem

variable {F : FTy → Type} [FloatOps F]

def tblLit : pre1.Contents (Elt F) := fun
  | ⟨0, _⟩ => fun i => lit0 (S2x18.rowMajor i)
  | ⟨1, _⟩ => fun i => lit1 (S2x18.rowMajor i)
  | ⟨_ + 2, h⟩ => absurd h (Nat.not_lt.2 (Nat.le_add_left _ _))

theorem size_S1x1 : ∀ a : Fin 2, S1x1.size a = 1 := by decide
theorem off_lt (i : grid1.Coords) (a : Fin 2) : k1_off1 i a + 1 ≤ S2x18.size a := size_S1x1 a ▸ k1_off1_inb i a

def cellAt (i : grid1.Coords) : S2x18.Idx :=
  (Rect.unit (s := S2x18) (k1_off1 i) S1x1.size (k1_off1_inb i)).emb (Shape.Idx.first (numel1_S1x1.symm ▸ Nat.one_pos))

def cellD (i : grid1.Coords) : S2x18.Idx := fun a => ⟨k1_off1 i a, off_lt i a⟩

theorem cell_eq : ∀ t : Fin grid1.N, cellAt (grid1.coords t) = cellD (grid1.coords t) := by decide +kernel

def bOf (t : Fin grid1.N) : Fin 4 := grid1.coords t 1

def qiW (t : Fin grid1.N) : BitVec 32 := lit0 (S2x18.rowMajor (cellD (grid1.coords t)))
def kiW (t : Fin grid1.N) : BitVec 32 := lit1 (S2x18.rowMajor (cellD (grid1.coords t)))

def qiN (t : Fin grid1.N) : ℕ := (qiW t).toNat
def kiN (t : Fin grid1.N) : ℕ := (kiW t).toNat

theorem qiW_eq (t : Fin grid1.N) : (tblLit (F := F)).atD 0 (k1_off1 (grid1.coords t)) = qiW t := dif_pos (off_lt _)
theorem kiW_eq (t : Fin grid1.N) : (tblLit (F := F)).atD 1 (k1_off1 (grid1.coords t)) = kiW t := dif_pos (off_lt _)
theorem qiW_at (t : Fin grid1.N) : tblLit (F := F) 0 (cellAt (grid1.coords t)) = qiW t := by rw [cell_eq]; rfl
theorem kiW_at (t : Fin grid1.N) : tblLit (F := F) 1 (cellAt (grid1.coords t)) = kiW t := by rw [cell_eq]; rfl

theorem ki_le_qi : ∀ t : Fin grid1.N, kiN t ≤ qiN t ∧ qiN t < 8 := by decide +kernel

theorem tr0_eq (pf : pre1.Contents (Elt F)) (i : grid1.Coords) :
    cc1_transform_0 k1_off1_inb numel1_S1x1 pf i = ![(BitVec.ofNat 32 (i 1).val).toNat, (pf 0 (cellAt i) : BitVec 32).toNat, 0] := rfl
theorem tr1_eq (pf : pre1.Contents (Elt F)) (i : grid1.Coords) :
    cc1_transform_1 k1_off1_inb numel1_S1x1 pf i = ![(BitVec.ofNat 32 (i 1).val).toNat, (pf 1 (cellAt i) : BitVec 32).toNat, 0] := rfl
theorem tr2_eq (pf : pre1.Contents (Elt F)) (i : grid1.Coords) :
    cc1_transform_2 k1_off1_inb numel1_S1x1 pf i = ![(BitVec.ofNat 32 (i 1).val).toNat, (pf 1 (cellAt i) : BitVec 32).toNat, 0] := rfl
theorem tr3_eq (pf : pre1.Contents (Elt F)) (i : grid1.Coords) :
    cc1_transform_3 k1_off1_inb numel1_S1x1 pf i = ![(BitVec.ofNat 32 (i 1).val).toNat, (pf 0 (cellAt i) : BitVec 32).toNat, 0] := rfl

def ixOf (w : S2x18.Idx → BitVec 32) (i : grid1.Coords) : Fin 3 → ℕ := ![(BitVec.ofNat 32 (i 1).val).toNat, (w (cellAt i)).toNat, 0]

theorem inb_lit0 : ∀ (i : grid1.Coords) a, (ixOf (fun x => lit0 (S2x18.rowMajor x)) i a + 1) * S1x512x1024.size a ≤ S4x4096x1024.size a := by decide +kernel
theorem inb_lit1 : ∀ (i : grid1.Coords) a, (ixOf (fun x => lit1 (S2x18.rowMajor x)) i a + 1) * S1x512x1024.size a ≤ S4x4096x1024.size a := by decide +kernel

theorem ok_lit : ok1 (F := F) tblLit :=
  ⟨fun i => ⟨inb_lit0 i, .inr (Affine.block_words_dvd (of_decide_eq_true rfl) (by decide))⟩,
   fun i => ⟨inb_lit1 i, .inr (Affine.block_words_dvd (of_decide_eq_true rfl) (by decide))⟩,
   fun i => ⟨inb_lit1 i, .inr (Affine.block_words_dvd (of_decide_eq_true rfl) (by decide))⟩,
   fun i => ⟨inb_lit0 i, .inl rfl⟩⟩

abbrev adm1 : (pcfg1 (F := F)).Adm := ⟨tblLit, ok_lit⟩
abbrev cfgM : Pipeline.Cfg sig Λ₀ := cfg1 (F := F) adm1
theorem N_M : (cfgM (F := F)).N = 144 := N_1

theorem batch_word : ∀ t : Fin grid1.N, (BitVec.ofNat 32 (grid1.coords t 1).val).toNat = (bOf t).val := by decide +kernel

theorem index0 (t : Fin grid1.N) : ((cfgM (F := F)).win 0).index t = ![(bOf t).val, qiN t, 0] := by
  show cc1_transform_0 k1_off1_inb numel1_S1x1 (tblLit (F := F)) (grid1.coords t) = _
  rw [tr0_eq, qiW_at, batch_word]; rfl

theorem index1 (t : Fin grid1.N) : ((cfgM (F := F)).win 1).index t = ![(bOf t).val, kiN t, 0] := by
  show cc1_transform_1 k1_off1_inb numel1_S1x1 (tblLit (F := F)) (grid1.coords t) = _
  rw [tr1_eq, kiW_at, batch_word]; rfl

theorem index2 (t : Fin grid1.N) : ((cfgM (F := F)).win 2).index t = ![(bOf t).val, kiN t, 0] := by
  show cc1_transform_2 k1_off1_inb numel1_S1x1 (tblLit (F := F)) (grid1.coords t) = _
  rw [tr2_eq, kiW_at, batch_word]; rfl

theorem index3 (t : Fin grid1.N) : ((cfgM (F := F)).win 3).index t = ![(bOf t).val, qiN t, 0] := by
  show cc1_transform_3 k1_off1_inb numel1_S1x1 (tblLit (F := F)) (grid1.coords t) = _
  rw [tr3_eq, qiW_at, batch_word]; rfl

theorem kiW_zero : ∀ t : Fin grid1.N, kiW t = 0#32 ↔ kiN t = 0 := by decide +kernel
theorem kiW_eq_qiW : ∀ t : Fin grid1.N, kiW t = qiW t ↔ kiN t = qiN t := by decide +kernel
theorem cond4_iff : ∀ t : Fin grid1.N, k1_cond4 (qiW t) (kiW t) = 1#1 ↔ kiN t = qiN t := by decide +kernel

theorem cond_first : ∀ t : Fin grid1.N, Scalar.cmpi .ne (Scalar.extui (Scalar.cmpi .eq (kiW t) 0#32) : BitVec 32) 0#32 = 1#1 ↔ kiN t = 0 := by decide +kernel

theorem cond_diag : ∀ t : Fin grid1.N, Scalar.cmpi .ne (Scalar.extui (Scalar.cmpi .eq (kiW t) (qiW t)) : BitVec 32) 0#32 = 1#1 ↔ kiN t = qiN t := by decide +kernel

theorem cond_off : ∀ t : Fin grid1.N, Scalar.cmpi .ne (Scalar.extui (Scalar.cmpi .ne (kiW t) (qiW t)) : BitVec 32) 0#32 = 1#1 ↔ kiN t ≠ qiN t := by decide +kernel

theorem idle3 (t : Fin grid1.N) : (cfgM (F := F)).idle 3 (grid1.coords t) = true ↔ kiN t ≠ qiN t := by
  show (!(k1_cond4 ((tblLit (F := F)).atD 0 (k1_off1 (grid1.coords t))) ((tblLit (F := F)).atD 1 (k1_off1 (grid1.coords t))) == 1#1)) = true ↔ _
  rw [qiW_eq, kiW_eq, Bool.not_eq_true', beq_eq_false_iff_ne]
  exact not_congr (cond4_iff t)
theorem idle0 (i : grid1.Coords) : (cfgM (F := F)).idle 0 i = false := rfl
theorem idle1' (i : grid1.Coords) : (cfgM (F := F)).idle 1 i = false := rfl
theorem idle2 (i : grid1.Coords) : (cfgM (F := F)).idle 2 i = false := rfl

def idx3 (t : Fin grid1.N) : Fin 3 → ℕ := ![(bOf t).val, qiN t, 0]

theorem idx3_step : ∀ t : Fin grid1.N, (t.val + 1 = grid1.N ∨ ∃ h : t.val + 1 < grid1.N, idx3 ⟨t.val + 1, h⟩ ≠ idx3 t) ↔ kiN t = qiN t := by decide +kernel

theorem flush_iff_of_index {G : Pipeline.Grid} (w : Pipeline.Window sig G) (hout : w.isOut = true)
    (f : Fin G.N → Fin w.shape.rank → ℕ) (hf : ∀ s, w.index s = f s) (t : Fin G.N) :
    w.flush t = true ↔ (t.val + 1 = G.N ∨ ∃ h : t.val + 1 < G.N, f ⟨t.val + 1, h⟩ ≠ f t) := by
  unfold Pipeline.Window.flush
  rw [hout]
  simp only [hf, Bool.true_and, Bool.or_eq_true, decide_eq_true_eq]

theorem flush3 (t : Fin grid1.N) : ((cfgM (F := F)).win 3).flush t = true ↔ kiN t = qiN t :=
  (flush_iff_of_index ((cfgM (F := F)).win 3) rfl idx3 index3 t).trans (idx3_step t)

theorem pred : ∀ t : Fin grid1.N, kiN t ≠ 0 → ∃ h : 0 < t.val,
    bOf ⟨t.val - 1, by omega⟩ = bOf t ∧ qiN ⟨t.val - 1, by omega⟩ = qiN t ∧ kiN ⟨t.val - 1, by omega⟩ + 1 = kiN t := by decide +kernel

theorem cover : ∀ (b : Fin 4) (q : Fin 8), ∃ t : Fin grid1.N, bOf t = b ∧ qiN t = q.val ∧ kiN t = q.val := by decide +kernel

theorem cover_unique : ∀ t t' : Fin grid1.N, kiN t = qiN t → kiN t' = qiN t' → bOf t = bOf t' → qiN t = qiN t' → t = t' := by decide +kernel

theorem load_q (t : Fin grid1.N) :
    (Memref.whole main_c).view.readAt (Elt F) (Rect.unit (s := S2x18) (k1_off1 (grid1.coords t)) S1x1.size (k1_off1_inb (grid1.coords t))).toLoadRect (tblLit (F := F) 0) (Shape.Idx.first (numel1_S1x1.symm ▸ Nat.one_pos)) = qiW t := by
  rw [← qiW_at (F := F) t]; rfl
theorem load_k (t : Fin grid1.N) :
    (Memref.whole main_c_0).view.readAt (Elt F) (Rect.unit (s := S2x18) (k1_off1 (grid1.coords t)) S1x1.size (k1_off1_inb (grid1.coords t))).toLoadRect (tblLit (F := F) 1) (Shape.Idx.first (numel1_S1x1.symm ▸ Nat.one_pos)) = kiW t := by
  rw [← kiW_at (F := F) t]; rfl

theorem qiN_def (t : Fin grid1.N) : qiN t = (qiW t).toNat := rfl
theorem kiN_def (t : Fin grid1.N) : kiN t = (kiW t).toNat := rfl

attribute [irreducible] qiN kiN

end Cert.Kernel.Hand

end
-- ==== Proof.R1DataBits.lean ====
import proofs.«407511_j23811298689314_3_alg».proof.Proof.R1RunsBits
import proofs.«407511_j23811298689314_3_alg».proof.Proof.SchedBits
import proofs.«407511_j23811298689314_3_alg».proof.Proof.Gen.Kernel.Launch
import Idealize.ShloMosaic.Lib.Pipeline.FrameBody
import Idealize.ShloMosaic.Lib.Pipeline.TableIdle
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- `V`: what every buffer holds when the region is entered
variable (V : (c : Dev nD) → (b : Ref sig .tc) → Buf (Elt F) ((c : Thread nD τ).loc b))

-- the second condition says the two words are equal, the third that they differ
theorem cond1_1_iff (v2 v5 : BitVec 32) : cond1_1 v2 v5 ↔ v5 = v2 := by
  unfold cond1_1 Scalar.cmpi Scalar.extui IntOp.cmpi
  by_cases h : v5 = v2
  · have hb : (v5 == v2) = true := beq_iff_eq.mpr h
    simp only [hb]; exact ⟨fun _ => h, fun _ => by decide⟩
  · have hb : (v5 == v2) = false := beq_eq_false_iff_ne.mpr h
    simp only [hb]; exact ⟨fun hh => absurd hh (by decide), fun hh => absurd hh h⟩

theorem cond1_2_iff (v2 v5 : BitVec 32) : cond1_2 v2 v5 ↔ ¬cond1_1 v2 v5 := by
  rw [cond1_1_iff]
  unfold cond1_2 Scalar.cmpi Scalar.extui IntOp.cmpi
  by_cases h : v5 = v2
  · have hb : (v5 != v2) = false := bne_eq_false_iff_eq.mpr h
    simp only [hb]; exact ⟨fun hh => absurd hh (by decide), fun hh => absurd h hh⟩
  · have hb : (v5 != v2) = true := bne_iff_ne.mpr h
    simp only [hb]; exact ⟨fun _ => h, fun _ => by decide⟩

theorem c2_of {v2 v5 : BitVec 32} (h : ¬cond1_1 v2 v5) : cond1_2 v2 v5 := (cond1_2_iff _ _).mpr h
theorem nc2_of {v2 v5 : BitVec 32} (h : cond1_1 v2 v5) : ¬cond1_2 v2 v5 := fun h' => (cond1_2_iff _ _).mp h' h

-- window `w`'s block at point `t`, read off its array as the region finds it
def iblk1 (c : Dev nD) (w : Fin (cfgM (F := F)).W) (t : Fin (cfgM (F := F)).N) : (((cfgM (F := F)).win w).xblock ((cfgM (F := F)).grid.coords t)).Idx → Elt F ((cfgM (F := F)).win w).elt :=
  (((cfgM (F := F)).win w).blk t).view.read (Elt F) (V c (Pipeline.arrRef spec1 w))

abbrev ms1_0 (t : Fin (cfgM (F := F)).N) : Memref sig .tc .vmem S1x512x1024 .bf16 := spec1_0.stage ((cfgM (F := F)).slots t 0)
abbrev hs1_0 (t : Fin (cfgM (F := F)).N) : (ms1_0 (F := F) t).IsWhole := hstage1_0 (((cfgM (F := F)).slots t 0).cast nbuf1_0)
abbrev ms1_1 (t : Fin (cfgM (F := F)).N) : Memref sig .tc .vmem S1x512x1024 .bf16 := spec1_1.stage ((cfgM (F := F)).slots t 1)
abbrev hs1_1 (t : Fin (cfgM (F := F)).N) : (ms1_1 (F := F) t).IsWhole := hstage1_1 (((cfgM (F := F)).slots t 1).cast nbuf1_1)
abbrev ms1_2 (t : Fin (cfgM (F := F)).N) : Memref sig .tc .vmem S1x512x1024 .bf16 := spec1_2.stage ((cfgM (F := F)).slots t 2)
abbrev hs1_2 (t : Fin (cfgM (F := F)).N) : (ms1_2 (F := F) t).IsWhole := hstage1_2 (((cfgM (F := F)).slots t 2).cast nbuf1_2)
abbrev ms1_3 (t : Fin (cfgM (F := F)).N) : Memref sig .tc .vmem S1x512x1024 .f32 := spec1_3.stage ((cfgM (F := F)).slots t 3)
abbrev hs1_3 (t : Fin (cfgM (F := F)).N) : (ms1_3 (F := F) t).IsWhole := hstage1_3 (((cfgM (F := F)).slots t 3).cast nbuf1_3)

-- the two conditions that select the case at point `t`: `ki = 0` and `ki = qi`
abbrev c0At (c : Dev nD) (t : Fin (cfgM (F := F)).N) : Prop := cond1_0 (w1_1 (F := F) c (grid1.coords t) (tblLit 1))
abbrev c1At (c : Dev nD) (t : Fin (cfgM (F := F)).N) : Prop := cond1_1 (w1_0 (F := F) c (grid1.coords t) (tblLit 0)) (w1_1 (F := F) c (grid1.coords t) (tblLit 1))

-- the run of the body at point `t`, case by case, at the point's buffers, input blocks and table words
abbrev runA1 (c : Dev nD) (t : Fin (cfgM (F := F)).N) (h0 : c0At (F := F) c t) (h1 : c1At (F := F) c t) :=
  kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (tblLit 0) (tblLit 1) h0 h1 (nc2_of h1)
abbrev runB1 (c : Dev nD) (t : Fin (cfgM (F := F)).N) (h0 : c0At (F := F) c t) (h1 : ¬c1At (F := F) c t) :=
  kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (tblLit 0) (tblLit 1) h0 h1 (c2_of h1)
abbrev runC1 (c : Dev nD) (t : Fin (cfgM (F := F)).N) (h0 : ¬c0At (F := F) c t) (h1 : c1At (F := F) c t) (p : Vec F S1x512x1 .f32 × Vec F S1x512x1 .f32 × Vec F S1x512x1024 .f32) :=
  kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (tblLit 0) (tblLit 1) h0 h1 (nc2_of h1) p.1 p.2.1 p.2.2
abbrev runD1 (c : Dev nD) (t : Fin (cfgM (F := F)).N) (h0 : ¬c0At (F := F) c t) (h1 : ¬c1At (F := F) c t) (p : Vec F S1x512x1 .f32 × Vec F S1x512x1 .f32 × Vec F S1x512x1024 .f32) :=
  kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (tblLit 0) (tblLit 1) h0 h1 (c2_of h1) p.1 p.2.1 p.2.2

-- one point's step: what the selected case leaves, the carried buffers holding `p` before it (the reset cases do not read `p`)
def stepAt1 (c : Dev nD) (t : Fin (cfgM (F := F)).N) (p : Vec F S1x512x1 .f32 × Vec F S1x512x1 .f32 × Vec F S1x512x1024 .f32) :
    Vec F S1x512x1024 .f32 × Vec F S1x512x1 .f32 × Vec F S1x512x1 .f32 × Vec F S1x512x1024 .f32 :=
  if h0 : c0At (F := F) c t then
    if h1 : c1At (F := F) c t then leaves1 (runA1 V c t h0 h1) else leaves1 (runB1 V c t h0 h1)
  else
    if h1 : c1At (F := F) c t then leaves1 (runC1 V c t h0 h1 p) else leaves1 (runD1 V c t h0 h1 p)

-- the output buffer and the carried buffers after position `n`: the step over what position `n - 1` left; the first point resets
def outsAt1 (c : Dev nD) : (n : ℕ) → n < (cfgM (F := F)).N → Vec F S1x512x1024 .f32 × Vec F S1x512x1 .f32 × Vec F S1x512x1 .f32 × Vec F S1x512x1024 .f32
  | 0, hn => stepAt1 V c ⟨0, hn⟩ (VS1_0.read (Elt F) VS1_0.junk, VS1_1.read (Elt F) VS1_1.junk, VS1_2.read (Elt F) VS1_2.junk)
  | n + 1, hn => stepAt1 V c ⟨n + 1, hn⟩ (outsAt1 c n (Nat.lt_of_succ_lt hn)).2

theorem w1_0_at (c : Dev nD) (t : Fin (cfgM (F := F)).N) : w1_0 (F := F) c (grid1.coords t) (tblLit 0) = qiW t := by
  rw [← qiW_at (F := F) t]; rfl
theorem w1_1_at (c : Dev nD) (t : Fin (cfgM (F := F)).N) : w1_1 (F := F) c (grid1.coords t) (tblLit 1) = kiW t := by
  rw [← kiW_at (F := F) t]; rfl
theorem c0At_iff (c : Dev nD) (t : Fin (cfgM (F := F)).N) : c0At (F := F) c t ↔ kiN t = 0 := by
  unfold c0At; rw [w1_1_at]; exact cond_first t
theorem c1At_iff (c : Dev nD) (t : Fin (cfgM (F := F)).N) : c1At (F := F) c t ↔ kiN t = qiN t := by
  unfold c1At; rw [w1_0_at, w1_1_at]; exact cond_diag t

-- the first point opens a run: `ki = 0` there
theorem first_c0 (c : Dev nD) (t : Fin (cfgM (F := F)).N) (h : t.val = 0) : c0At (F := F) c t :=
  (c0At_iff c t).mpr (by
    by_contra hk
    obtain ⟨hp, -⟩ := pred t hk
    omega)

theorem idle3_of (c : Dev nD) (t : Fin (cfgM (F := F)).N) (h : ¬c1At (F := F) c t) : (cfgM (F := F)).idle 3 ((cfgM (F := F)).grid.coords t) = true :=
  (idle3 t).mpr fun e => h ((c1At_iff c t).mpr e)
theorem live3_of (c : Dev nD) (t : Fin (cfgM (F := F)).N) (h : c1At (F := F) c t) : (cfgM (F := F)).idle 3 ((cfgM (F := F)).grid.coords t) = false :=
  Bool.eq_false_iff.mpr fun e => (idle3 t).mp e ((c1At_iff c t).mp h)
theorem noflush3_of (c : Dev nD) (t : Fin (cfgM (F := F)).N) (h : ¬c1At (F := F) c t) : ((cfgM (F := F)).win 3).flush t = false :=
  Bool.eq_false_iff.mpr fun e => h ((c1At_iff c t).mpr ((flush3 t).mp e))

abbrev prev1 (c : Dev nD) (t : Fin (cfgM (F := F)).N) : Vec F S1x512x1 .f32 × Vec F S1x512x1 .f32 × Vec F S1x512x1024 .f32 :=
  (outsAt1 V c (t.val - 1) (Nat.lt_of_le_of_lt (Nat.sub_le _ _) t.isLt)).2

theorem outsAt1_A (c : Dev nD) (t : Fin (cfgM (F := F)).N) (h0 : c0At (F := F) c t) (h1 : c1At (F := F) c t) :
    outsAt1 V c t.val t.isLt = leaves1 (runA1 V c t h0 h1) := by
  obtain ⟨n, hn⟩ := t
  cases n <;> exact (dif_pos h0).trans (dif_pos h1)

theorem outsAt1_B (c : Dev nD) (t : Fin (cfgM (F := F)).N) (h0 : c0At (F := F) c t) (h1 : ¬c1At (F := F) c t) :
    outsAt1 V c t.val t.isLt = leaves1 (runB1 V c t h0 h1) := by
  obtain ⟨n, hn⟩ := t
  cases n <;> exact (dif_pos h0).trans (dif_neg h1)

theorem outsAt1_C (c : Dev nD) (t : Fin (cfgM (F := F)).N) (h0 : ¬c0At (F := F) c t) (h1 : c1At (F := F) c t) :
    outsAt1 V c t.val t.isLt = leaves1 (runC1 V c t h0 h1 (prev1 V c t)) := by
  obtain ⟨n, hn⟩ := t
  cases n with
  | zero => exact absurd (first_c0 c ⟨0, hn⟩ rfl) h0
  | succ n => exact (dif_neg h0).trans (dif_pos h1)

theorem outsAt1_D (c : Dev nD) (t : Fin (cfgM (F := F)).N) (h0 : ¬c0At (F := F) c t) (h1 : ¬c1At (F := F) c t) :
    outsAt1 V c t.val t.isLt = leaves1 (runD1 V c t h0 h1 (prev1 V c t)) := by
  obtain ⟨n, hn⟩ := t
  cases n with
  | zero => exact absurd (first_c0 c ⟨0, hn⟩ rfl) h0
  | succ n => exact (dif_neg h0).trans (dif_neg h1)

def stgRest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

theorem sep_assoc_eq {M : Type} [URA M] (P Q R : sProp M) : iprop((P ∗ Q) ∗ R) = iprop(P ∗ Q ∗ R) :=
  Idealize.SL.BI.Entails.antisymm Idealize.SL.BI.sep_assoc Idealize.SL.BI.sep_assoc'

theorem scopedRest1_split (c : Dev nD) :
    (Pipeline.scopedRest spec1 c : sProp 𝕄)
      = iprop(stgRest1 c ∗ (∃ d, owns (c : Thread nD τ) scM1_0 fullShare d) ∗ (∃ d, owns (c : Thread nD τ) scM1_1 fullShare d) ∗ (∃ d, owns (c : Thread nD τ) scM1_2 fullShare d)) := by
  rw [scopedRest1_eq]
  unfold stgRest1
  simp only [scM1_0, scM1_1, scM1_2, owns_whole, sep_assoc_eq]
  try rfl

theorem PhiA1_eq (c : Dev nD) :
    (Pipeline.ΦA spec1 c : sProp 𝕄)
      = iprop(iprop(stgRest1 c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_split]

theorem PhiT1_eq (c : Dev nD) : (Pipeline.prefHeld pre1 c (fun _ => fullShare) (tblLit (F := F)) : sProp 𝕄) = iprop(tbPt1 c tbM1_0 (tblLit 0) ∗ tbPt1 c tbM1_1 (tblLit 1)) := by
  unfold Pipeline.prefHeld
  rw [show (Finset.univ : Finset (Fin 2)) = insert (0 : Fin 2) {(1 : Fin 2)} from by decide,
    bigSep_insert (by decide), bigSep_singleton]
  rfl

-- the region invariant before position `n`: all the region holds besides its windows, the carried buffers at anything before the first point and at what the point before left afterwards
def PhiS1 (c : Dev nD) : (n : ℕ) → n ≤ (cfgM (F := F)).N → sProp 𝕄
  | 0, _ => iprop(Pipeline.ΦA spec1 c ∗ tbPt1 c tbM1_0 (tblLit 0) ∗ tbPt1 c tbM1_1 (tblLit 1))
  | n + 1, hn => iprop(iprop(iprop(stgRest1 c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) ∗ tbPt1 c tbM1_0 (tblLit 0) ∗ tbPt1 c tbM1_1 (tblLit 1))

theorem PhiS1_zero (c : Dev nD) (n : ℕ) (h : n ≤ (cfgM (F := F)).N) (hz : n = 0) :
    PhiS1 V c n h = iprop(Pipeline.ΦA spec1 c ∗ tbPt1 c tbM1_0 (tblLit 0) ∗ tbPt1 c tbM1_1 (tblLit 1)) := by
  subst hz; rfl

theorem PhiS1_succ (c : Dev nD) (n : ℕ) (hn : n < (cfgM (F := F)).N) :
    PhiS1 V c (n + 1) hn = iprop(iprop(iprop(stgRest1 c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) ∗ tbPt1 c tbM1_0 (tblLit 0) ∗ tbPt1 c tbM1_1 (tblLit 1)) := rfl

theorem PhiS1_pos (c : Dev nD) (n : ℕ) (h : n ≤ (cfgM (F := F)).N) (hz : n ≠ 0) :
    PhiS1 V c n h = iprop(iprop(iprop(stgRest1 c ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) ∗ tbPt1 c tbM1_0 (tblLit 0) ∗ tbPt1 c tbM1_1 (tblLit 1)) := by
  cases n with
  | zero => exact absurd rfl hz
  | succ n => rfl

-- the proof data of the attention launch: the arrays as found; after each point every input window at its block and the output window at `outsAt1`'s first component
def dat1 (c : Dev nD) : Dat τ (Elt F) Unit ℕ (UR sig nD τ) ℕ (cfgM (F := F)) c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin (cfgM (F := F)).W) : (dat1 V c).A w = V c (Pipeline.arrRef spec1 w) := by
  dsimp only [dat1]

theorem PhiS1_castSucc (c : Dev nD) (t : Fin (cfgM (F := F)).N) :
    (dat1 V c).Φ t.castSucc = PhiS1 V c t.val (Nat.le_of_lt t.isLt) := by
  dsimp only [dat1]; simp only [Fin.coe_castSucc]

theorem after1_0 (c : Dev nD) (t : Fin (cfgM (F := F)).N) : (dat1 V c).after 0 t = iblk1 V c 0 t := by dsimp only [dat1]; try rfl
theorem after1_1 (c : Dev nD) (t : Fin (cfgM (F := F)).N) : (dat1 V c).after 1 t = iblk1 V c 1 t := by dsimp only [dat1]; try rfl
theorem after1_2 (c : Dev nD) (t : Fin (cfgM (F := F)).N) : (dat1 V c).after 2 t = iblk1 V c 2 t := by dsimp only [dat1]; try rfl
theorem after1_3 (c : Dev nD) (t : Fin (cfgM (F := F)).N) : (dat1 V c).after 3 t = (outsAt1 V c t.val t.isLt).1 := by dsimp only [dat1]; try rfl

theorem before1_0 (c : Dev nD) (t : Fin (cfgM (F := F)).N) (d) : (dat1 V c).before 0 t d = iblk1 V c 0 t :=
  ((dat1 V c).before_in_eq_fetched 0 rfl (fun i => idle0 i) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin (cfgM (F := F)).N) (d) : (dat1 V c).before 1 t d = iblk1 V c 1 t :=
  ((dat1 V c).before_in_eq_fetched 1 rfl (fun i => idle1' i) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin (cfgM (F := F)).N) (d) : (dat1 V c).before 2 t d = iblk1 V c 2 t :=
  ((dat1 V c).before_in_eq_fetched 2 rfl (fun i => idle2 i) (fun _ _ _ => rfl)
    (fun t => by rw [after1_2]; unfold Dat.blockOf iblk1; rw [A_eq1]; try rfl) t d).trans
    (by unfold Dat.fetched Dat.blockOf iblk1; rw [A_eq1]; try rfl)

abbrev bodyAt1 (t : Fin (cfgM (F := F)).N) : Prog (TpuEff nD τ sig (Elt F) Λ₀ .tc) PUnit :=
  cc1__flash_causal_kernel (grid1.coords t) (Memref.whole main_c) (Memref.isWhole_whole _) (Memref.whole main_c_0) (Memref.isWhole_whole _) (spec1_0.stage ((cfgM (F := F)).slots t 0)) (hstage1_0 (((cfgM (F := F)).slots t 0).cast nbuf1_0)) (spec1_1.stage ((cfgM (F := F)).slots t 1)) (hstage1_1 (((cfgM (F := F)).slots t 1).cast nbuf1_1)) (spec1_2.stage ((cfgM (F := F)).slots t 2)) (hstage1_2 (((cfgM (F := F)).slots t 2).cast nbuf1_2)) (spec1_3.stage ((cfgM (F := F)).slots t 3)) (hstage1_3 (((cfgM (F := F)).slots t 3).cast nbuf1_3)) (Memref.whole cc1_scratch0) (Memref.isWhole_whole _) (Memref.whole cc1_scratch1) (Memref.isWhole_whole _) (Memref.whole cc1_scratch2) (Memref.isWhole_whole _)

def bodyPre1 (c : Dev nD) (t : Fin (cfgM (F := F)).N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin (cfgM (F := F)).N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

-- a buffer written piece by piece, the pieces covering it, is owned at the pieces read back, through any view and over anything
theorem owns_of_writes (c : Dev nD) {sp : Space} {S : Shape} {e : EltTy} (M : Memref sig .tc sp S e) (v' : View sig .tc sp S e) (f : M.view.ty.Contents (Elt F))
    (L : List (View.Piece (Elt F) S e)) (h : ∀ y, ∃ pc ∈ L, y ∈ pc.1.set) :
    (iprop(M.view.loc (c : Thread nD τ) ↦[M.view.set]{fullShare} M.view.writes (Elt F) f L) : sProp 𝕄) ⊢ owns (c : Thread nD τ) M fullShare (v'.read (Elt F) (v'.writes (Elt F) v'.junk L)) := by
  unfold owns
  iintro H
  iexists _; isplitr
  swap; · iexact H
  ipureintro; exact View.read_writes_of_cover _ _ _ _ _ h

-- before any position the invariant holds the three carried buffers each at something
theorem PhiS1_any (c : Dev nD) (n : ℕ) (h : n ≤ (cfgM (F := F)).N) :
    PhiS1 V c n h ⊢ iprop(iprop(iprop(stgRest1 c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) ∗ tbPt1 c tbM1_0 (tblLit 0) ∗ tbPt1 c tbM1_1 (tblLit 1)) := by
  cases n with
  | zero => rw [PhiS1_zero V c 0 h rfl, PhiA1_eq]
  | succ n =>
    rw [PhiS1_succ]
    iintro ⟨⟨⟨HR, H0, H1, H2⟩, Hg⟩, HT⟩
    isplitr [HT]; swap; · iexact HT
    isplitr [Hg]; swap; · iexact Hg
    isplitl [HR]; · iexact HR
    isplitl [H0]; · iexists _; iexact H0
    isplitl [H1]; · iexists _; iexact H1
    iexists _; iexact H2

set_option maxHeartbeats 4800000 in
-- the body at any point: the conditions select the case, whose run takes the carried buffers and the tables from the invariant and returns them at this point's contents; a reset case takes the carried buffers at anything, the other two occur only after the first point
theorem sound_body1 (c : Dev nD) (t : Fin (cfgM (F := F)).N) :
    bodyPre1 V c t ⊢ wp frame (wpE (defs₀ (F := F)) Variants.none c none) Set.univ (bodyAt1 (F := F) t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ, PhiS1_castSucc V c t]
  rw [show (dat1 V c).leavesExact 0 t = owns (c : Thread nD τ) (ms1_0 t) fullShare ((dat1 V c).after 0 t) from by
    unfold Dat.leavesExact; rw [idle0]; rfl, after1_0]
  rw [show (dat1 V c).leavesExact 1 t = owns (c : Thread nD τ) (ms1_1 t) fullShare ((dat1 V c).after 1 t) from by
    unfold Dat.leavesExact; rw [idle1']; rfl, after1_1]
  rw [show (dat1 V c).leavesExact 2 t = owns (c : Thread nD τ) (ms1_2 t) fullShare ((dat1 V c).after 2 t) from by
    unfold Dat.leavesExact; rw [idle2]; rfl, after1_2]
  by_cases h0 : c0At (F := F) c t
  · refine (sep_mono_left (PhiS1_any V c _ _)).trans ?_
    by_cases h1 : c1At (F := F) c t
    · rw [show (dat1 V c).leavesExact 3 t = owns (c : Thread nD τ) (ms1_3 t) fullShare ((dat1 V c).after 3 t) from by
        unfold Dat.leavesExact; rw [live3_of c t h1]; rfl, after1_3, outsAt1_A V c t h0 h1]
      unfold leaves1; (try dsimp only)
      iintro ⟨⟨⟨⟨HR, HS0, HS1, HS2⟩, Hg⟩, HT0, HT1⟩, Ho, ⟨%d0, H0⟩, ⟨%d1, H1⟩, ⟨%d2, H2⟩, ⟨%d3, H3⟩⟩
      iapply ((runA1 V c t h0 h1).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HT0]; · iexact HT0
      isplitl [HT1]; · iexact HT1
      iintro ⟨H0, H1, H2, ⟨%e3, H3⟩, ⟨%es0, HS0⟩, ⟨%es1, HS1⟩, ⟨%es2, HS2⟩, HT0, HT1⟩
      isplitl [HR HS0 HS1 HS2 Hg HT0 HT1]
      · isplitl [HR HS0 HS1 HS2 Hg]
        · isplitl [HR HS0 HS1 HS2]
          · isplitl [HR]; · iexact HR
            isplitl [HS0]; · iapply (owns_of_writes c _ _ _ _ (cover1_A c _ _ _ _ _ _ _ _ _ _ _ _ _ _ _ _ _ _ _ _ _ _ _).2.1); iexact HS0
            isplitl [HS1]; · iapply (owns_of_writes c _ _ _ _ (cover1_A c _ _ _ _ _ _ _ _ _ _ _ _ _ _ _ _ _ _ _ _ _ _ _).2.2.1); iexact HS1
            iapply (owns_of_writes c _ _ _ _ (cover1_A c _ _ _ _ _ _ _ _ _ _ _ _ _ _ _ _ _ _ _ _ _ _ _).2.2.2); iexact HS2
          iexact Hg
        isplitl [HT0]; · iexact HT0
        iexact HT1
      isplitl [Ho]; · iexact Ho
      isplitl [H0]; · iexact H0
      isplitl [H1]; · iexact H1
      isplitl [H2]; · iexact H2
      iapply (owns_of_writes c _ _ _ _ (cover1_A c _ _ _ _ _ _ _ _ _ _ _ _ _ _ _ _ _ _ _ _ _ _ _).1); iexact H3
    · rw [Dat.leavesExact_idle (dat1 V c) 3 t (idle3_of c t h1) (noflush3_of c t h1), outsAt1_B V c t h0 h1]
      unfold leaves1; (try dsimp only)
      iintro ⟨⟨⟨⟨HR, HS0, HS1, HS2⟩, Hg⟩, HT0, HT1⟩, Ho, ⟨%d0, H0⟩, ⟨%d1, H1⟩, ⟨%d2, H2⟩, ⟨%d3, H3⟩⟩
      iapply ((runB1 V c t h0 h1).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HT0]; · iexact HT0
      isplitl [HT1]; · iexact HT1
      iintro ⟨H0, H1, H2, H3, ⟨%es0, HS0⟩, ⟨%es1, HS1⟩, ⟨%es2, HS2⟩, HT0, HT1⟩
      isplitl [HR HS0 HS1 HS2 Hg HT0 HT1]
      · isplitl [HR HS0 HS1 HS2 Hg]
        · isplitl [HR HS0 HS1 HS2]
          · isplitl [HR]; · iexact HR
            isplitl [HS0]; · iapply (owns_of_writes c _ _ _ _ (cover1_B c _ _ _ _ _ _ _ _ _ _ _ _ _ _ _ _ _ _ _ _ _ _ _).1); iexact HS0
            isplitl [HS1]; · iapply (owns_of_writes c _ _ _ _ (cover1_B c _ _ _ _ _ _ _ _ _ _ _ _ _ _ _ _ _ _ _ _ _ _ _).2.1); iexact HS1
            iapply (owns_of_writes c _ _ _ _ (cover1_B c _ _ _ _ _ _ _ _ _ _ _ _ _ _ _ _ _ _ _ _ _ _ _).2.2); iexact HS2
          iexact Hg
        isplitl [HT0]; · iexact HT0
        iexact HT1
      isplitl [Ho]; · iexact Ho
      isplitl [H0]; · iexact H0
      isplitl [H1]; · iexact H1
      isplitl [H2]; · iexact H2
      iexists _; iexact H3
  · rw [PhiS1_pos V c _ _ (fun hz => h0 (first_c0 c t hz))]
    by_cases h1 : c1At (F := F) c t
    · rw [show (dat1 V c).leavesExact 3 t = owns (c : Thread nD τ) (ms1_3 t) fullShare ((dat1 V c).after 3 t) from by
        unfold Dat.leavesExact; rw [live3_of c t h1]; rfl, after1_3, outsAt1_C V c t h0 h1]
      unfold leaves1; (try dsimp only)
      iintro ⟨⟨⟨⟨HR, HS0, HS1, HS2⟩, Hg⟩, HT0, HT1⟩, Ho, ⟨%d0, H0⟩, ⟨%d1, H1⟩, ⟨%d2, H2⟩, ⟨%d3, H3⟩⟩
      iapply ((runC1 V c t h0 h1 _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HT0]; · iexact HT0
      isplitl [HT1]; · iexact HT1
      iintro ⟨H0, H1, H2, ⟨%e3, H3⟩, ⟨%es0, HS0⟩, ⟨%es1, HS1⟩, ⟨%es2, HS2⟩, HT0, HT1⟩
      isplitl [HR HS0 HS1 HS2 Hg HT0 HT1]
      · isplitl [HR HS0 HS1 HS2 Hg]
        · isplitl [HR HS0 HS1 HS2]
          · isplitl [HR]; · iexact HR
            isplitl [HS0]; · iapply (owns_of_writes c _ _ _ _ (cover1_C c _ _ _ _ _ _ _ _ _ _ _ _ _ _ _ _ _ _ _ _ _ _ _ _ _ _).2.1); iexact HS0
            isplitl [HS1]; · iapply (owns_of_writes c _ _ _ _ (cover1_C c _ _ _ _ _ _ _ _ _ _ _ _ _ _ _ _ _ _ _ _ _ _ _ _ _ _).2.2.1); iexact HS1
            iapply (owns_of_writes c _ _ _ _ (cover1_C c _ _ _ _ _ _ _ _ _ _ _ _ _ _ _ _ _ _ _ _ _ _ _ _ _ _).2.2.2); iexact HS2
          iexact Hg
        isplitl [HT0]; · iexact HT0
        iexact HT1
      isplitl [Ho]; · iexact Ho
      isplitl [H0]; · iexact H0
      isplitl [H1]; · iexact H1
      isplitl [H2]; · iexact H2
      iapply (owns_of_writes c _ _ _ _ (cover1_C c _ _ _ _ _ _ _ _ _ _ _ _ _ _ _ _ _ _ _ _ _ _ _ _ _ _).1); iexact H3
    · rw [Dat.leavesExact_idle (dat1 V c) 3 t (idle3_of c t h1) (noflush3_of c t h1), outsAt1_D V c t h0 h1]
      unfold leaves1; (try dsimp only)
      iintro ⟨⟨⟨⟨HR, HS0, HS1, HS2⟩, Hg⟩, HT0, HT1⟩, Ho, ⟨%d0, H0⟩, ⟨%d1, H1⟩, ⟨%d2, H2⟩, ⟨%d3, H3⟩⟩
      iapply ((runD1 V c t h0 h1 _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HT0]; · iexact HT0
      isplitl [HT1]; · iexact HT1
      iintro ⟨H0, H1, H2, H3, ⟨%es0, HS0⟩, ⟨%es1, HS1⟩, ⟨%es2, HS2⟩, HT0, HT1⟩
      isplitl [HR HS0 HS1 HS2 Hg HT0 HT1]
      · isplitl [HR HS0 HS1 HS2 Hg]
        · isplitl [HR HS0 HS1 HS2]
          · isplitl [HR]; · iexact HR
            isplitl [HS0]; · iapply (owns_of_writes c _ _ _ _ (cover1_D c _ _ _ _ _ _ _ _ _ _ _ _ _ _ _ _ _ _ _ _ _ _ _ _ _ _).1); iexact HS0
            isplitl [HS1]; · iapply (owns_of_writes c _ _ _ _ (cover1_D c _ _ _ _ _ _ _ _ _ _ _ _ _ _ _ _ _ _ _ _ _ _ _ _ _ _).2.1); iexact HS1
            iapply (owns_of_writes c _ _ _ _ (cover1_D c _ _ _ _ _ _ _ _ _ _ _ _ _ _ _ _ _ _ _ _ _ _ _ _ _ _).2.2); iexact HS2
          iexact Hg
        isplitl [HT0]; · iexact HT0
        iexact HT1
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : iprop((∃ r, prngReg c r) ∗ Pipeline.prefHeld pre1 c (fun _ => fullShare) (tblLit (F := F)) ∗ Pipeline.scopedRest spec1 c) ⊢ (dat1 V c).Φ 0 := by
  rw [show (dat1 V c).Φ 0 = PhiS1 V c 0 (Nat.zero_le _) from rfl, PhiS1_zero V c 0 _ rfl, PhiT1_eq]
  unfold Pipeline.ΦA
  iintro ⟨Hg, ⟨Ht0, Ht1⟩, Hs⟩
  isplitl [Hs Hg]
  · isplitl [Hs]; · iexact Hs
    iexact Hg
  isplitl [Ht0]; · iexact Ht0
  iexact Ht1

-- after the last point the invariant gives back what the region was handed, the carried contents forgotten
theorem hout1 (c : Dev nD) : (dat1 V c).Φ (Fin.last _) ⊢ iprop(((∃ r, prngReg c r) ∗ Pipeline.prefHeld pre1 c (fun _ => fullShare) (tblLit (F := F))) ∗ Pipeline.scopedRest spec1 c) := by
  rw [PhiT1_eq, scopedRest1_split]
  refine (show (dat1 V c).Φ (Fin.last _) ⊢ _ from PhiS1_any V c (Fin.last (cfgM (F := F)).N).val (Nat.le_of_lt_succ (Fin.last _).isLt)).trans ?_
  iintro ⟨⟨Hs, Hg⟩, Ht⟩
  isplitr [Hs]; swap; · iexact Hs
  isplitl [Hg]; · iexact Hg
  iexact Ht

end Cert.Kernel.Hand

end
-- ==== Proof.TablesAtEntryBits.lean ====
import proofs.«407511_j23811298689314_3_alg».proof.Proof.FoldBits
import proofs.«407511_j23811298689314_3_alg».proof.Proof.SchedBits
import Idealize.ShloMosaic.Lib.StableHlo.Run

-- the two schedule tables still hold at the attention launch the literal words written at the very beginning: nothing in between writes them
set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

theorem V3_main_c (c : Dev nD) : V3 m ρ c main_c = fun i => lit0 (S2x18.rowMajor i) := by
  have e3 : W3 m ρ c (Proc.devRef .tc main_c) = W2 m ρ c (Proc.devRef .tc main_c) :=
    StableHlo.after_of_writes_sub hostOps1 _ hostOps1_writes (by decide)
  have e2 : W2 m ρ c (Proc.devRef .tc main_c) = W1 m ρ c (Proc.devRef .tc main_c) :=
    W2_of_ne m ρ c main_c (by decide)
  have e1 : W1 m ρ c (Proc.devRef .tc main_c) = fun i => lit0 (S2x18.rowMajor i) := by
    show StableHlo.after (hostOps0 (F := F)) _ (Proc.devRef .tc main_c) = _
    after_results
    rfl
  exact e3.trans (e2.trans e1)

theorem V3_main_c_0 (c : Dev nD) : V3 m ρ c main_c_0 = fun i => lit1 (S2x18.rowMajor i) := by
  have e3 : W3 m ρ c (Proc.devRef .tc main_c_0) = W2 m ρ c (Proc.devRef .tc main_c_0) :=
    StableHlo.after_of_writes_sub hostOps1 _ hostOps1_writes (by decide)
  have e2 : W2 m ρ c (Proc.devRef .tc main_c_0) = W1 m ρ c (Proc.devRef .tc main_c_0) :=
    W2_of_ne m ρ c main_c_0 (by decide)
  have e1 : W1 m ρ c (Proc.devRef .tc main_c_0) = fun i => lit1 (S2x18.rowMajor i) := by
    show StableHlo.after (hostOps0 (F := F)) _ (Proc.devRef .tc main_c_0) = _
    after_results
    rfl
  exact e3.trans (e2.trans e1)

theorem V3_pre (c : Dev nD) : (fun k => V3 m ρ c (pre1.ref k)) = (tblLit (F := F)) := by
  funext k
  match k with
  | ⟨0, _⟩ => exact V3_main_c m ρ c
  | ⟨1, _⟩ => exact V3_main_c_0 m ρ c
  | ⟨_ + 2, h⟩ => exact absurd h (Nat.not_lt.2 (Nat.le_add_left _ _))

end Cert.Kernel.Hand

end
-- ==== Proof.R1Pieces.lean ====
import proofs.«407511_j23811298689314_3_alg».proof.Proof.R1Runs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F] [Named F]

theorem hz3 : (![0, 0, 0] : Fin 3 → Nat) = fun _ => 0 := funext fun a => by fin_cases a <;> rfl

-- a whole-buffer load after a last whole-buffer store reads that store's payload, whatever was stored before
theorem readCov_cons_unit_zero {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

variable (c : Dev nD) (i : grid1.Coords)
  (arg5 : Memref sig .tc .vmem S1x512x1024 .bf16) (harg5 : arg5.IsWhole) (arg6 : Memref sig .tc .vmem S1x512x1024 .bf16) (harg6 : arg6.IsWhole)
  (arg7 : Memref sig .tc .vmem S1x512x1024 .bf16) (harg7 : arg7.IsWhole) (arg8 : Memref sig .tc .vmem S1x512x1024 .f32) (harg8 : arg8.IsWhole)
  (arg9 : Memref sig .tc .vmem S1x512x1 .f32) (harg9 : arg9.IsWhole) (arg10 : Memref sig .tc .vmem S1x512x1 .f32) (harg10 : arg10.IsWhole)
  (arg11 : Memref sig .tc .vmem S1x512x1024 .f32) (harg11 : arg11.IsWhole)
  (x0 x1 x2 : Vec F S1x512x1024 .bf16) (xt0 : TbBuf1 (F := F) c tbM1_0) (xt1 : TbBuf1 (F := F) c tbM1_1)

/-! What each case leaves is one payload per buffer (output, maximum, sum, accumulator): every store is a whole-buffer
    store, the last of which covers, and every load reads a whole buffer as found or as an earlier store of the run left it. -/

theorem leaves1_A (hc0 : cond1_0 (w1_1 c i xt1)) (hc1 : cond1_1 (w1_0 c i xt0) (w1_1 c i xt1)) (hc2 : ¬cond1_2 (w1_0 c i xt0) (w1_1 c i xt1)) :
    leaves1 (kernelRun1_A c i arg5 harg5 arg6 harg6 arg7 harg7 arg8 harg8 arg9 harg9 arg10 harg10 arg11 harg11 x0 x1 x2 xt0 xt1 hc0 hc1 hc2) =
      (k1_pay8 (k1_pay5 (k1_pay14 (Scalar.muli (w1_0 c i xt0) 512#32) (Scalar.muli (w1_1 c i xt1) 512#32) (k1_pay4 x0 x1) (k1_pay1 (F := F)) (k1_pay1 (F := F)) (k1_pay3 (F := F)) x2)) (k1_pay13 (Scalar.muli (w1_0 c i xt0) 512#32) (Scalar.muli (w1_1 c i xt1) 512#32) (k1_pay4 x0 x1) (k1_pay1 (F := F)) (k1_pay1 (F := F)) (k1_pay2 (F := F))),
       k1_pay6 (k1_pay10 (Scalar.muli (w1_0 c i xt0) 512#32) (Scalar.muli (w1_1 c i xt1) 512#32) (k1_pay4 x0 x1) (k1_pay1 (F := F))),
       k1_pay13 (Scalar.muli (w1_0 c i xt0) 512#32) (Scalar.muli (w1_1 c i xt1) 512#32) (k1_pay4 x0 x1) (k1_pay1 (F := F)) (k1_pay1 (F := F)) (k1_pay2 (F := F)),
       k1_pay5 (k1_pay14 (Scalar.muli (w1_0 c i xt0) 512#32) (Scalar.muli (w1_1 c i xt1) 512#32) (k1_pay4 x0 x1) (k1_pay1 (F := F)) (k1_pay1 (F := F)) (k1_pay3 (F := F)) x2)) := by
  have hcov := cover1_A c i arg5 harg5 arg6 harg6 arg7 harg7 arg8 harg8 arg9 harg9 arg10 harg10 arg11 harg11 x0 x1 x2 xt0 xt1 hc0 hc1 hc2
  unfold leaves1
  rw [View.read_writes_eq_canon _ _ _ hcov.1, View.read_writes_eq_canon _ _ _ hcov.2.1, View.read_writes_eq_canon _ _ _ hcov.2.2.1, View.read_writes_eq_canon _ _ _ hcov.2.2.2]
  unfold kernelRun1_A
  dsimp only
  sl_unfold_run_names
  simp only [View.canon_cons_unit_zero (S := S1x512x1) hz3, View.canon_cons_unit_zero (S := S1x512x1024) hz3, w1_0, w1_1, View.readAt_eq_ld,
    harg5.read_unread, harg6.read_unread, harg7.read_unread, harg9.read_unread, harg10.read_unread, harg11.read_unread,
    View.ld_unit_zero (S := S1x512x1024) hz3, View.ld_unit_zero (S := S1x512x1) hz3,
    readCov_cons_unit_zero (S := S1x512x1024) _ hz3, readCov_cons_unit_zero (S := S1x512x1) _ hz3]

theorem leaves1_B (hc0 : cond1_0 (w1_1 c i xt1)) (hc1 : ¬cond1_1 (w1_0 c i xt0) (w1_1 c i xt1)) (hc2 : cond1_2 (w1_0 c i xt0) (w1_1 c i xt1)) :
    (leaves1 (kernelRun1_B c i arg5 harg5 arg6 harg6 arg7 harg7 arg8 harg8 arg9 harg9 arg10 harg10 arg11 harg11 x0 x1 x2 xt0 xt1 hc0 hc1 hc2)).2 =
      (k1_pay7 (k1_pay15 (k1_pay4 x0 x1) (k1_pay1 (F := F))), k1_pay18 (k1_pay4 x0 x1) (k1_pay1 (F := F)) (k1_pay1 (F := F)) (k1_pay2 (F := F)),
       k1_pay19 (k1_pay4 x0 x1) (k1_pay1 (F := F)) (k1_pay1 (F := F)) (k1_pay3 (F := F)) x2) := by
  have hcov := cover1_B c i arg5 harg5 arg6 harg6 arg7 harg7 arg8 harg8 arg9 harg9 arg10 harg10 arg11 harg11 x0 x1 x2 xt0 xt1 hc0 hc1 hc2
  unfold leaves1
  dsimp only
  rw [View.read_writes_eq_canon _ _ _ hcov.1, View.read_writes_eq_canon _ _ _ hcov.2.1, View.read_writes_eq_canon _ _ _ hcov.2.2]
  unfold kernelRun1_B
  dsimp only
  sl_unfold_run_names
  simp only [View.canon_cons_unit_zero (S := S1x512x1) hz3, View.canon_cons_unit_zero (S := S1x512x1024) hz3, w1_0, w1_1, View.readAt_eq_ld,
    harg5.read_unread, harg6.read_unread, harg7.read_unread, harg9.read_unread, harg10.read_unread, harg11.read_unread,
    View.ld_unit_zero (S := S1x512x1024) hz3, View.ld_unit_zero (S := S1x512x1) hz3,
    readCov_cons_unit_zero (S := S1x512x1024) _ hz3, readCov_cons_unit_zero (S := S1x512x1) _ hz3]

theorem leaves1_C (hc0 : ¬cond1_0 (w1_1 c i xt1)) (hc1 : cond1_1 (w1_0 c i xt0) (w1_1 c i xt1)) (hc2 : ¬cond1_2 (w1_0 c i xt0) (w1_1 c i xt1))
    (xs0 xs1 : Vec F S1x512x1 .f32) (xs2 : Vec F S1x512x1024 .f32) :
    leaves1 (kernelRun1_C c i arg5 harg5 arg6 harg6 arg7 harg7 arg8 harg8 arg9 harg9 arg10 harg10 arg11 harg11 x0 x1 x2 xt0 xt1 hc0 hc1 hc2 xs0 xs1 xs2) =
      (k1_pay8 (k1_pay5 (k1_pay14 (Scalar.muli (w1_0 c i xt0) 512#32) (Scalar.muli (w1_1 c i xt1) 512#32) (k1_pay4 x0 x1) xs0 xs0 xs2 x2)) (k1_pay13 (Scalar.muli (w1_0 c i xt0) 512#32) (Scalar.muli (w1_1 c i xt1) 512#32) (k1_pay4 x0 x1) xs0 xs0 xs1),
       k1_pay6 (k1_pay10 (Scalar.muli (w1_0 c i xt0) 512#32) (Scalar.muli (w1_1 c i xt1) 512#32) (k1_pay4 x0 x1) xs0),
       k1_pay13 (Scalar.muli (w1_0 c i xt0) 512#32) (Scalar.muli (w1_1 c i xt1) 512#32) (k1_pay4 x0 x1) xs0 xs0 xs1,
       k1_pay5 (k1_pay14 (Scalar.muli (w1_0 c i xt0) 512#32) (Scalar.muli (w1_1 c i xt1) 512#32) (k1_pay4 x0 x1) xs0 xs0 xs2 x2)) := by
  have hcov := cover1_C c i arg5 harg5 arg6 harg6 arg7 harg7 arg8 harg8 arg9 harg9 arg10 harg10 arg11 harg11 x0 x1 x2 xt0 xt1 hc0 hc1 hc2 xs0 xs1 xs2
  unfold leaves1
  rw [View.read_writes_eq_canon _ _ _ hcov.1, View.read_writes_eq_canon _ _ _ hcov.2.1, View.read_writes_eq_canon _ _ _ hcov.2.2.1, View.read_writes_eq_canon _ _ _ hcov.2.2.2]
  unfold kernelRun1_C
  dsimp only
  sl_unfold_run_names
  simp only [View.canon_cons_unit_zero (S := S1x512x1) hz3, View.canon_cons_unit_zero (S := S1x512x1024) hz3, w1_0, w1_1, View.readAt_eq_ld,
    harg5.read_unread, harg6.read_unread, harg7.read_unread, harg9.read_unread, harg10.read_unread, harg11.read_unread,
    View.ld_unit_zero (S := S1x512x1024) hz3, View.ld_unit_zero (S := S1x512x1) hz3,
    readCov_cons_unit_zero (S := S1x512x1024) _ hz3, readCov_cons_unit_zero (S := S1x512x1) _ hz3]

theorem leaves1_D (hc0 : ¬cond1_0 (w1_1 c i xt1)) (hc1 : ¬cond1_1 (w1_0 c i xt0) (w1_1 c i xt1)) (hc2 : cond1_2 (w1_0 c i xt0) (w1_1 c i xt1))
    (xs0 xs1 : Vec F S1x512x1 .f32) (xs2 : Vec F S1x512x1024 .f32) :
    (leaves1 (kernelRun1_D c i arg5 harg5 arg6 harg6 arg7 harg7 arg8 harg8 arg9 harg9 arg10 harg10 arg11 harg11 x0 x1 x2 xt0 xt1 hc0 hc1 hc2 xs0 xs1 xs2)).2 =
      (k1_pay7 (k1_pay15 (k1_pay4 x0 x1) xs0), k1_pay18 (k1_pay4 x0 x1) xs0 xs0 xs1, k1_pay19 (k1_pay4 x0 x1) xs0 xs0 xs2 x2) := by
  have hcov := cover1_D c i arg5 harg5 arg6 harg6 arg7 harg7 arg8 harg8 arg9 harg9 arg10 harg10 arg11 harg11 x0 x1 x2 xt0 xt1 hc0 hc1 hc2 xs0 xs1 xs2
  unfold leaves1
  dsimp only
  rw [View.read_writes_eq_canon _ _ _ hcov.1, View.read_writes_eq_canon _ _ _ hcov.2.1, View.read_writes_eq_canon _ _ _ hcov.2.2]
  unfold kernelRun1_D
  dsimp only
  sl_unfold_run_names
  simp only [View.canon_cons_unit_zero (S := S1x512x1) hz3, View.canon_cons_unit_zero (S := S1x512x1024) hz3, w1_0, w1_1, View.readAt_eq_ld,
    harg5.read_unread, harg6.read_unread, harg7.read_unread, harg9.read_unread, harg10.read_unread, harg11.read_unread,
    View.ld_unit_zero (S := S1x512x1024) hz3, View.ld_unit_zero (S := S1x512x1) hz3,
    readCov_cons_unit_zero (S := S1x512x1024) _ hz3, readCov_cons_unit_zero (S := S1x512x1) _ hz3]

end Cert.KernelIdeal.Hand

end
-- ==== Proof.Spec.lean ====
import Idealize.ShloMosaic.PureOps.Ideal

/- Causal attention as a function of the inputs: `G` scores with the 1/32 factor inside the contraction, `GRef` divides by √1024 and
   normalises each weight; and the blockwise evaluation `stAt`: running maximum, sum and weighted sum after key blocks 0 … j of 512 positions. -/

noncomputable section

namespace Cert.Spec

open Idealize.ShloMosaic

abbrev X3 : Type := Fin 4 → Fin 4096 → Fin 1024 → EReal

abbrev W2 : Type := Fin 1024 → Fin 1024 → EReal

def IsReal (y : EReal) : Prop := ∃ r : ℝ, y = (r : EReal)

structure Finite (x : X3) (wq wk wv : W2) : Prop where
  x : ∀ b t e, IsReal (x b t e)
  wq : ∀ a e, IsReal (wq a e)
  wk : ∀ a e, IsReal (wk a e)
  wv : ∀ a e, IsReal (wv a e)

def proj (x : X3) (w : W2) (b : Fin 4) (t : Fin 4096) (a : Fin 1024) : EReal :=
  ∑ e : Fin 1024, x b t e * w a e

def round4 (y : EReal) : EReal :=
  Ideal.div (Ideal.liftRound Ideal.roundHalfEven (y * ((10000 : ℝ) : EReal))) ((10000 : ℝ) : EReal)

section
variable (x : X3) (wq wk wv : W2)

def score (b : Fin 4) (q k : Fin 4096) : EReal :=
  ∑ a : Fin 1024, (proj x wq b q a * ((1 / 32 : ℝ) : EReal)) * proj x wk b k a

def mscore (b : Fin 4) (q k : Fin 4096) : EReal := if k ≤ q then score x wq wk b q k else ⊥

def rowMax (b : Fin 4) (q : Fin 4096) : EReal := Finset.univ.sup (mscore x wq wk b q)

def wgt (b : Fin 4) (q k : Fin 4096) : EReal := Ideal.exp (mscore x wq wk b q k - rowMax x wq wk b q)

def rowSum (b : Fin 4) (q : Fin 4096) : EReal := ∑ k : Fin 4096, wgt x wq wk b q k

def rowAcc (b : Fin 4) (q : Fin 4096) (a : Fin 1024) : EReal :=
  ∑ k : Fin 4096, wgt x wq wk b q k * proj x wv b k a

def G (b : Fin 4) (q : Fin 4096) (a : Fin 1024) : EReal :=
  round4 (Ideal.div (rowAcc x wq wk wv b q a) (rowSum x wq wk b q))

def scoreRef (b : Fin 4) (q k : Fin 4096) : EReal :=
  Ideal.div (∑ a : Fin 1024, proj x wq b q a * proj x wk b k a) (Ideal.sqrt ((1024 : ℝ) : EReal))

def mscoreRef (b : Fin 4) (q k : Fin 4096) : EReal := if k ≤ q then scoreRef x wq wk b q k else ⊥

def rowMaxRef (b : Fin 4) (q : Fin 4096) : EReal := Finset.univ.sup (mscoreRef x wq wk b q)

def wgtRef (b : Fin 4) (q k : Fin 4096) : EReal := Ideal.exp (mscoreRef x wq wk b q k - rowMaxRef x wq wk b q)

def rowSumRef (b : Fin 4) (q : Fin 4096) : EReal := ∑ k : Fin 4096, wgtRef x wq wk b q k

def GRef (b : Fin 4) (q : Fin 4096) (a : Fin 1024) : EReal :=
  round4 (∑ k : Fin 4096, Ideal.div (wgtRef x wq wk b q k) (rowSumRef x wq wk b q) * proj x wv b k a)

def pos (j : ℕ) (c : Fin 512) : Fin 4096 := ⟨(512 * j + c.val) % 4096, Nat.mod_lt _ (by norm_num)⟩

structure St where
  m : Fin 512 → EReal
  l : Fin 512 → EReal
  acc : Fin 512 → Fin 1024 → EReal

def St.init : St := ⟨fun _ => ⊥, fun _ => 0, fun _ _ => 0⟩

def step (s : Fin 512 → Fin 512 → EReal) (v : Fin 512 → Fin 1024 → EReal) (σ : St) : St where
  m r := max (σ.m r) (Finset.univ.sup (s r))
  l r := Ideal.exp (σ.m r - max (σ.m r) (Finset.univ.sup (s r))) * σ.l r
    + ∑ c : Fin 512, Ideal.exp (s r c - max (σ.m r) (Finset.univ.sup (s r)))
  acc r a := Ideal.exp (σ.m r - max (σ.m r) (Finset.univ.sup (s r))) * σ.acc r a
    + ∑ c : Fin 512, Ideal.exp (s r c - max (σ.m r) (Finset.univ.sup (s r))) * v c a

def blockScore (b : Fin 4) (qi j : ℕ) (r c : Fin 512) : EReal := mscore x wq wk b (pos qi r) (pos j c)

def blockVal (b : Fin 4) (j : ℕ) (c : Fin 512) (a : Fin 1024) : EReal := proj x wv b (pos j c) a

def stAt (b : Fin 4) (qi : ℕ) : ℕ → St
  | 0 => step (blockScore x wq wk b qi 0) (blockVal x wv b 0) St.init
  | j + 1 => step (blockScore x wq wk b qi (j + 1)) (blockVal x wv b (j + 1)) (stAt b qi j)

def blockOut (b : Fin 4) (qi : ℕ) (r : Fin 512) (a : Fin 1024) : EReal :=
  round4 (Ideal.div ((stAt x wq wk wv b qi qi).acc r a) ((stAt x wq wk wv b qi qi).l r))

end

end Cert.Spec

end
-- ==== Proof.R1PayIdx.lean ====
import proofs.«407511_j23811298689314_3_alg».proof.Proof.Gen.KernelIdeal.Skeleton
import proofs.«407511_j23811298689314_3_alg».proof.Proof.Spec
import Idealize.ShloMosaic.Lib.ValueIdx
import Idealize.ShloMosaic.Lib.ValueLayout
import Idealize.ShloMosaic.Lib.Pipeline.Value
import Idealize.ShloMosaic.PureOps.Ideal.Laws

/- The attention body's arithmetic read at an index: the score block is the contraction of query and key rows, the diagonal block is masked
   after each row's own position by -∞, and the new maximum, sum and weighted sum are one step of the blockwise evaluation; the stored block is
   the weighted sum divided by the sum, rounded. -/

noncomputable section

namespace Cert.KernelIdeal.Hand

open Cert.KernelIdeal Cert.KernelIdeal.Gen Idealize.ShloMosaic
open Idealize.ShloMosaic.ValueIdx

def col (u : FVec Ideal S1x512x1 .f32) : Fin 512 → EReal := fun r => u (ix3 (0 : Fin 1) r (0 : Fin 1))

def mat {φ : FTy} (u : FVec Ideal S1x512x1024 φ) : Fin 512 → Fin 1024 → EReal := fun r a => u (ix3 (0 : Fin 1) r a)

def sq (u : FVec Ideal S1x512x512 .f32) : Fin 512 → Fin 512 → EReal := fun r c => u (ix3 (0 : Fin 1) r c)

def stOf (xs0 xs1 : FVec Ideal S1x512x1 .f32) (xs2 : FVec Ideal S1x512x1024 .f32) : Cert.Spec.St :=
  ⟨col xs0, col xs1, mat xs2⟩

theorem fin1_eq (u : Fin 1) : u = (0 : Fin 1) := Fin.ext (by omega)

theorem shapeCast_1b_1b1_apply {α : Type} {b : ℕ} (x : (⟨2, ![1, b]⟩ : Shape).Idx → α)
    (h : (⟨2, ![1, b]⟩ : Shape).ShapeCasts ⟨3, ![1, b, 1]⟩) (u : Fin 1) (r : Fin b) (z : Fin 1) :
    shapeCast ⟨3, ![1, b, 1]⟩ x h (ix3 u r z) = x (ix2 u r) :=
  shapeCast_apply x h _ _ (by
    have hz : z.val = 0 := by omega
    rw [Shape.rowMajor_val_three, Shape.rowMajor_val_two]
    show u.val * b + r.val = (u.val * b + r.val) * 1 + z.val
    rw [hz, Nat.mul_one, Nat.add_zero])

theorem broadcastTo_1b1_1bn_apply {α : Type} {b n : ℕ} (v : (⟨3, ![1, b, 1]⟩ : Shape).Idx → α)
    (h : (⟨3, ![1, b, 1]⟩ : Shape).Broadcasts ⟨3, ![1, b, n]⟩) (u : Fin 1) (r : Fin b) (c : Fin n) :
    broadcastTo ⟨3, ![1, b, n]⟩ v h (ix3 u r c) = v (ix3 (0 : Fin 1) r (0 : Fin 1)) := by
  refine broadcastTo_apply v h (ix3 u r c) (ix3 (0 : Fin 1) r (0 : Fin 1)) fun ax => ?_
  match ax with
  | ⟨0, _⟩ => rfl
  | ⟨1, _⟩ =>
    show r.val = if b = 1 then 0 else r.val
    split
    · have := r.isLt; omega
    · rfl
  | ⟨2, _⟩ => rfl

theorem ofBits_neg_inf : Ideal.ofBits .f32 0xFF800000#32 = ⊥ := by simp [Ideal.ofBits, Ideal.ieee]

theorem lift_eq (u : Fin 1) (r : Fin 512) (c : Fin 512) :
    reduces_S1x512x512_S1x512.lift (ix2 u r) c = ix3 u r c :=
  funext fun a => Fin.ext (by
    match a with
    | ⟨0, _⟩ => rfl
    | ⟨1, _⟩ => rfl
    | ⟨2, _⟩ => rfl)

theorem rowMax_apply (s : FVec Ideal S1x512x512 .f32) (r : Fin 512) :
    shapeCast S1x512x1 (multiReduction .maximumf [2] S1x512 s 0xFF800000#32 reduces_S1x512x512_S1x512 (.inl rfl) rfl)
        shapeCasts_S1x512_S1x512x1 (ix3 (0 : Fin 1) r (0 : Fin 1))
      = Finset.univ.sup (sq s r) := by
  rw [shapeCast_1b_1b1_apply]
  refine (Ideal.multiReduction_maximumf_single s 0xFF800000#32 reduces_S1x512x512_S1x512 (.inl rfl) rfl
    (ix2 (0 : Fin 1) r)).trans ?_
  have hf : (s ∘ reduces_S1x512x512_S1x512.lift (ix2 (0 : Fin 1) r)) = sq s r :=
    funext fun c => congrArg s (lift_eq 0 r c)
  rw [hf, Ideal.ofBits_def, ofBits_neg_inf]
  rfl

theorem rowSum_apply (s : FVec Ideal S1x512x512 .f32) (r : Fin 512) :
    shapeCast S1x512x1 (multiReduction .add [2] S1x512 s 0x00000000#32 reduces_S1x512x512_S1x512 (.inl rfl) rfl)
        shapeCasts_S1x512_S1x512x1 (ix3 (0 : Fin 1) r (0 : Fin 1))
      = ∑ c : Fin 512, sq s r c := by
  rw [shapeCast_1b_1b1_apply]
  refine (Ideal.multiReduction_add_single s 0x00000000#32 reduces_S1x512x512_S1x512 (.inl rfl) rfl
    (ix2 (0 : Fin 1) r)).trans ?_
  exact Finset.sum_congr rfl fun c _ => congrArg s (lift_eq 0 r c)

theorem lhs_qk_0 (i : S1x512x512.Idx) (q : dot_S1x512x1024_S1x512x1024_S1x512x512_2_2_1_1_0_0.contr.Idx) :
    (dot_S1x512x1024_S1x512x1024_S1x512x512_2_2_1_1_0_0.lhsIdx i q 0).val = (i 0).val := by
  unfold DotDims.lhsIdx
  rw [dif_pos (show (0 : Fin S1x512x1024.rank) ∈ dot_S1x512x1024_S1x512x1024_S1x512x512_2_2_1_1_0_0.lhsBatch by decide)]
  rfl
theorem lhs_qk_1 (i : S1x512x512.Idx) (q : dot_S1x512x1024_S1x512x1024_S1x512x512_2_2_1_1_0_0.contr.Idx) :
    (dot_S1x512x1024_S1x512x1024_S1x512x512_2_2_1_1_0_0.lhsIdx i q 1).val = (i 1).val := by
  unfold DotDims.lhsIdx
  rw [dif_neg (show ¬(1 : Fin S1x512x1024.rank) ∈ dot_S1x512x1024_S1x512x1024_S1x512x512_2_2_1_1_0_0.lhsBatch by decide), dif_pos (show (1 : Fin S1x512x1024.rank) ∈ dot_S1x512x1024_S1x512x1024_S1x512x512_2_2_1_1_0_0.lhsNonContracting by decide)]
  rfl
theorem lhs_qk_2 (i : S1x512x512.Idx) (q : dot_S1x512x1024_S1x512x1024_S1x512x512_2_2_1_1_0_0.contr.Idx) :
    (dot_S1x512x1024_S1x512x1024_S1x512x512_2_2_1_1_0_0.lhsIdx i q 2).val = (q ⟨0, by decide⟩).val :=
  dot_S1x512x1024_S1x512x1024_S1x512x512_2_2_1_1_0_0.lhsIdx_val_of_single rfl i q
theorem rhs_qk_0 (i : S1x512x512.Idx) (q : dot_S1x512x1024_S1x512x1024_S1x512x512_2_2_1_1_0_0.contr.Idx) :
    (dot_S1x512x1024_S1x512x1024_S1x512x512_2_2_1_1_0_0.rhsIdx i q 0).val = (i 0).val := by
  unfold DotDims.rhsIdx
  rw [dif_pos (show (0 : Fin S1x512x1024.rank) ∈ dot_S1x512x1024_S1x512x1024_S1x512x512_2_2_1_1_0_0.rhsBatch by decide)]
  rfl
theorem rhs_qk_1 (i : S1x512x512.Idx) (q : dot_S1x512x1024_S1x512x1024_S1x512x512_2_2_1_1_0_0.contr.Idx) :
    (dot_S1x512x1024_S1x512x1024_S1x512x512_2_2_1_1_0_0.rhsIdx i q 1).val = (i 2).val := by
  unfold DotDims.rhsIdx
  rw [dif_neg (show ¬(1 : Fin S1x512x1024.rank) ∈ dot_S1x512x1024_S1x512x1024_S1x512x512_2_2_1_1_0_0.rhsBatch by decide), dif_pos (show (1 : Fin S1x512x1024.rank) ∈ dot_S1x512x1024_S1x512x1024_S1x512x512_2_2_1_1_0_0.rhsNonContracting by decide)]
  rfl
theorem rhs_qk_2 (i : S1x512x512.Idx) (q : dot_S1x512x1024_S1x512x1024_S1x512x512_2_2_1_1_0_0.contr.Idx) :
    (dot_S1x512x1024_S1x512x1024_S1x512x512_2_2_1_1_0_0.rhsIdx i q 2).val = (q ⟨0, by decide⟩).val :=
  dot_S1x512x1024_S1x512x1024_S1x512x512_2_2_1_1_0_0.rhsIdx_val_of_single rfl i q

theorem qk_apply (x y : FVec Ideal S1x512x1024 .bf16) (r c : Fin 512) :
    matmul dot_S1x512x1024_S1x512x1024_S1x512x512_2_2_1_1_0_0 none x y (constant (F := Ideal) S1x512x512 .f32 0x00000000#32)
        (ix3 (0 : Fin 1) r c)
      = ∑ a : Fin 1024, x (ix3 (0 : Fin 1) r a) * y (ix3 (0 : Fin 1) c a) := by
  simp only [matmul]
  rw [Ideal.matmul_constant_zero_apply, ← Equiv.sum_comp (contrEquiv1 dot_S1x512x1024_S1x512x1024_S1x512x512_2_2_1_1_0_0 1024 rfl rfl).symm]
  refine Finset.sum_congr rfl fun k _ => ?_
  have hk := contrEquiv1_symm_val dot_S1x512x1024_S1x512x1024_S1x512x512_2_2_1_1_0_0 1024 rfl rfl k
  have el : dot_S1x512x1024_S1x512x1024_S1x512x512_2_2_1_1_0_0.lhsIdx (ix3 (0 : Fin 1) r c) ((contrEquiv1 dot_S1x512x1024_S1x512x1024_S1x512x512_2_2_1_1_0_0 1024 rfl rfl).symm k) = ix3 (0 : Fin 1) r k := funext fun a => Fin.ext (by
    match a with
    | ⟨0, _⟩ => exact lhs_qk_0 _ _
    | ⟨1, _⟩ => exact lhs_qk_1 _ _
    | ⟨2, _⟩ => exact (lhs_qk_2 _ _).trans hk)
  have er : dot_S1x512x1024_S1x512x1024_S1x512x512_2_2_1_1_0_0.rhsIdx (ix3 (0 : Fin 1) r c) ((contrEquiv1 dot_S1x512x1024_S1x512x1024_S1x512x512_2_2_1_1_0_0 1024 rfl rfl).symm k) = ix3 (0 : Fin 1) c k := funext fun a => Fin.ext (by
    match a with
    | ⟨0, _⟩ => exact rhs_qk_0 _ _
    | ⟨1, _⟩ => exact rhs_qk_1 _ _
    | ⟨2, _⟩ => exact (rhs_qk_2 _ _).trans hk)
  rw [el, er]

theorem lhs_pv_0 (i : S1x512x1024.Idx) (q : dot_S1x512x512_S1x512x1024_S1x512x1024_2_1_1_2_0_0.contr.Idx) :
    (dot_S1x512x512_S1x512x1024_S1x512x1024_2_1_1_2_0_0.lhsIdx i q 0).val = (i 0).val := by
  unfold DotDims.lhsIdx
  rw [dif_pos (show (0 : Fin S1x512x512.rank) ∈ dot_S1x512x512_S1x512x1024_S1x512x1024_2_1_1_2_0_0.lhsBatch by decide)]
  rfl
theorem lhs_pv_1 (i : S1x512x1024.Idx) (q : dot_S1x512x512_S1x512x1024_S1x512x1024_2_1_1_2_0_0.contr.Idx) :
    (dot_S1x512x512_S1x512x1024_S1x512x1024_2_1_1_2_0_0.lhsIdx i q 1).val = (i 1).val := by
  unfold DotDims.lhsIdx
  rw [dif_neg (show ¬(1 : Fin S1x512x512.rank) ∈ dot_S1x512x512_S1x512x1024_S1x512x1024_2_1_1_2_0_0.lhsBatch by decide), dif_pos (show (1 : Fin S1x512x512.rank) ∈ dot_S1x512x512_S1x512x1024_S1x512x1024_2_1_1_2_0_0.lhsNonContracting by decide)]
  rfl
theorem lhs_pv_2 (i : S1x512x1024.Idx) (q : dot_S1x512x512_S1x512x1024_S1x512x1024_2_1_1_2_0_0.contr.Idx) :
    (dot_S1x512x512_S1x512x1024_S1x512x1024_2_1_1_2_0_0.lhsIdx i q 2).val = (q ⟨0, by decide⟩).val :=
  dot_S1x512x512_S1x512x1024_S1x512x1024_2_1_1_2_0_0.lhsIdx_val_of_single rfl i q
theorem rhs_pv_0 (i : S1x512x1024.Idx) (q : dot_S1x512x512_S1x512x1024_S1x512x1024_2_1_1_2_0_0.contr.Idx) :
    (dot_S1x512x512_S1x512x1024_S1x512x1024_2_1_1_2_0_0.rhsIdx i q 0).val = (i 0).val := by
  unfold DotDims.rhsIdx
  rw [dif_pos (show (0 : Fin S1x512x1024.rank) ∈ dot_S1x512x512_S1x512x1024_S1x512x1024_2_1_1_2_0_0.rhsBatch by decide)]
  rfl
theorem rhs_pv_1 (i : S1x512x1024.Idx) (q : dot_S1x512x512_S1x512x1024_S1x512x1024_2_1_1_2_0_0.contr.Idx) :
    (dot_S1x512x512_S1x512x1024_S1x512x1024_2_1_1_2_0_0.rhsIdx i q 1).val = (q ⟨0, by decide⟩).val :=
  dot_S1x512x512_S1x512x1024_S1x512x1024_2_1_1_2_0_0.rhsIdx_val_of_single rfl i q
theorem rhs_pv_2 (i : S1x512x1024.Idx) (q : dot_S1x512x512_S1x512x1024_S1x512x1024_2_1_1_2_0_0.contr.Idx) :
    (dot_S1x512x512_S1x512x1024_S1x512x1024_2_1_1_2_0_0.rhsIdx i q 2).val = (i 2).val := by
  unfold DotDims.rhsIdx
  rw [dif_neg (show ¬(2 : Fin S1x512x1024.rank) ∈ dot_S1x512x512_S1x512x1024_S1x512x1024_2_1_1_2_0_0.rhsBatch by decide), dif_pos (show (2 : Fin S1x512x1024.rank) ∈ dot_S1x512x512_S1x512x1024_S1x512x1024_2_1_1_2_0_0.rhsNonContracting by decide)]
  rfl

theorem pv_apply (p : FVec Ideal S1x512x512 .bf16) (v : FVec Ideal S1x512x1024 .bf16) (r : Fin 512) (a : Fin 1024) :
    matmul dot_S1x512x512_S1x512x1024_S1x512x1024_2_1_1_2_0_0 none p v (constant (F := Ideal) S1x512x1024 .f32 0x00000000#32)
        (ix3 (0 : Fin 1) r a)
      = ∑ c : Fin 512, p (ix3 (0 : Fin 1) r c) * v (ix3 (0 : Fin 1) c a) := by
  simp only [matmul]
  rw [Ideal.matmul_constant_zero_apply, ← Equiv.sum_comp (contrEquiv1 dot_S1x512x512_S1x512x1024_S1x512x1024_2_1_1_2_0_0 512 rfl rfl).symm]
  refine Finset.sum_congr rfl fun k _ => ?_
  have hk := contrEquiv1_symm_val dot_S1x512x512_S1x512x1024_S1x512x1024_2_1_1_2_0_0 512 rfl rfl k
  have el : dot_S1x512x512_S1x512x1024_S1x512x1024_2_1_1_2_0_0.lhsIdx (ix3 (0 : Fin 1) r a) ((contrEquiv1 dot_S1x512x512_S1x512x1024_S1x512x1024_2_1_1_2_0_0 512 rfl rfl).symm k) = ix3 (0 : Fin 1) r k := funext fun x => Fin.ext (by
    match x with
    | ⟨0, _⟩ => exact lhs_pv_0 _ _
    | ⟨1, _⟩ => exact lhs_pv_1 _ _
    | ⟨2, _⟩ => exact (lhs_pv_2 _ _).trans hk)
  have er : dot_S1x512x512_S1x512x1024_S1x512x1024_2_1_1_2_0_0.rhsIdx (ix3 (0 : Fin 1) r a) ((contrEquiv1 dot_S1x512x512_S1x512x1024_S1x512x1024_2_1_1_2_0_0 512 rfl rfl).symm k) = ix3 (0 : Fin 1) k a := funext fun x => Fin.ext (by
    match x with
    | ⟨0, _⟩ => exact rhs_pv_0 _ _
    | ⟨1, _⟩ => exact (rhs_pv_1 _ _).trans hk
    | ⟨2, _⟩ => exact rhs_pv_2 _ _)
  rw [el, er]

theorem pay15_apply (s : FVec Ideal S1x512x512 .f32) (m : FVec Ideal S1x512x1 .f32) (r : Fin 512) :
    k1_pay15 s m (ix3 (0 : Fin 1) r (0 : Fin 1)) = max (col m r) (Finset.univ.sup (sq s r)) := by
  unfold k1_pay15
  rw [maximumf_apply, rowMax_apply]
  rfl

theorem pay16_apply (s : FVec Ideal S1x512x512 .f32) (m m' : FVec Ideal S1x512x1 .f32) (r : Fin 512) :
    k1_pay16 s m m' (ix3 (0 : Fin 1) r (0 : Fin 1))
      = Ideal.exp (col m' r - max (col m r) (Finset.univ.sup (sq s r))) := by
  unfold k1_pay16
  show Ideal.exp (subf m' (k1_pay15 s m) (ix3 (0 : Fin 1) r (0 : Fin 1))) = _
  rw [subf_apply, pay15_apply]
  rfl

theorem pay17_apply (s : FVec Ideal S1x512x512 .f32) (m : FVec Ideal S1x512x1 .f32) (r c : Fin 512) :
    k1_pay17 s m (ix3 (0 : Fin 1) r c) = Ideal.exp (sq s r c - max (col m r) (Finset.univ.sup (sq s r))) := by
  unfold k1_pay17
  show Ideal.exp (subf s (broadcastTo S1x512x512 (k1_pay15 s m) broadcasts_S1x512x1_S1x512x512) (ix3 (0 : Fin 1) r c)) = _
  rw [subf_apply, broadcastTo_1b1_1bn_apply, pay15_apply]
  rfl

theorem pay18_apply (s : FVec Ideal S1x512x512 .f32) (m m' l : FVec Ideal S1x512x1 .f32) (r : Fin 512) :
    k1_pay18 s m m' l (ix3 (0 : Fin 1) r (0 : Fin 1))
      = Ideal.exp (col m' r - max (col m r) (Finset.univ.sup (sq s r))) * col l r
        + ∑ c : Fin 512, Ideal.exp (sq s r c - max (col m r) (Finset.univ.sup (sq s r))) := by
  unfold k1_pay18
  simp only [shapeCast_self]
  rw [addf_apply, mulf_apply, rowSum_apply, pay16_apply]
  refine congrArg (_ + ·) (Finset.sum_congr rfl fun c _ => ?_)
  exact pay17_apply s m r c

theorem pay19_apply (s : FVec Ideal S1x512x512 .f32) (m m' : FVec Ideal S1x512x1 .f32) (acc : FVec Ideal S1x512x1024 .f32)
    (v : FVec Ideal S1x512x1024 .bf16) (r : Fin 512) (a : Fin 1024) :
    k1_pay19 s m m' acc v (ix3 (0 : Fin 1) r a)
      = Ideal.exp (col m' r - max (col m r) (Finset.univ.sup (sq s r))) * mat acc r a
        + ∑ c : Fin 512, Ideal.exp (sq s r c - max (col m r) (Finset.univ.sup (sq s r))) * mat v c a := by
  unfold k1_pay19
  simp only [shapeCast_self]
  rw [addf_apply, mulf_apply, broadcastTo_1b1_1bn_apply, pv_apply, pay16_apply]
  refine congrArg (_ + ·) (Finset.sum_congr rfl fun c _ => ?_)
  rw [truncf_apply, pay17_apply]
  rfl

theorem pay4_idx (q k : FVec Ideal S1x512x1024 .bf16) :
    sq (k1_pay4 q k) = fun r c => ∑ a : Fin 1024, mat q r a * mat k c a := by
  funext r c
  unfold sq k1_pay4
  simp only [shapeCast_self]
  exact qk_apply q k r c

theorem reset_st : stOf (k1_pay1 (F := Ideal)) (k1_pay2 (F := Ideal)) (k1_pay3 (F := Ideal)) = Cert.Spec.St.init := by
  have hm : col (k1_pay1 (F := Ideal)) = fun _ => ⊥ := by
    funext r; unfold col k1_pay1; simp only [shapeCast_self]; exact ofBits_neg_inf
  have hl : col (k1_pay2 (F := Ideal)) = fun _ => 0 := by
    funext r; unfold col k1_pay2; simp only [shapeCast_self]; exact Ideal.ofBits_zero_f32
  have ha : mat (k1_pay3 (F := Ideal)) = fun _ _ => 0 := by
    funext r a; unfold mat k1_pay3; simp only [shapeCast_self]; exact Ideal.ofBits_zero_f32
  unfold stOf Cert.Spec.St.init
  rw [hm, hl, ha]

theorem plain_m (s : FVec Ideal S1x512x512 .f32) (v : FVec Ideal S1x512x1024 .bf16) (xs0 xs1 : FVec Ideal S1x512x1 .f32)
    (xs2 : FVec Ideal S1x512x1024 .f32) :
    col (k1_pay7 (k1_pay15 s xs0)) = (Cert.Spec.step (sq s) (mat v) (stOf xs0 xs1 xs2)).m := by
  funext r
  unfold k1_pay7
  simp only [shapeCast_self]
  exact pay15_apply s xs0 r

theorem plain_l (s : FVec Ideal S1x512x512 .f32) (v : FVec Ideal S1x512x1024 .bf16) (xs0 xs1 : FVec Ideal S1x512x1 .f32)
    (xs2 : FVec Ideal S1x512x1024 .f32) :
    col (k1_pay18 s xs0 xs0 xs1) = (Cert.Spec.step (sq s) (mat v) (stOf xs0 xs1 xs2)).l := by
  funext r
  exact pay18_apply s xs0 xs0 xs1 r

theorem plain_acc (s : FVec Ideal S1x512x512 .f32) (v : FVec Ideal S1x512x1024 .bf16) (xs0 xs1 : FVec Ideal S1x512x1 .f32)
    (xs2 : FVec Ideal S1x512x1024 .f32) :
    mat (k1_pay19 s xs0 xs0 xs2 v) = (Cert.Spec.step (sq s) (mat v) (stOf xs0 xs1 xs2)).acc := by
  funext r a
  exact pay19_apply s xs0 xs0 xs2 v r a

def sqM (s : FVec Ideal S1x512x512 .f32) : Fin 512 → Fin 512 → EReal := fun r c => if c ≤ r then sq s r c else ⊥

theorem neg_big : Named.named (F := Ideal) κ "neg_big" (φ := .f32) 0xFF333332#32 = ⊥ :=
  IdealRules.named_const.ideal_named_scalar _ _ _ _ rfl

theorem sge_pos (A r c : ℕ) (hr : A + r < 2147483648) (hc : A + c < 2147483648) :
    IntOp.cmpi .sge (IntOp.addi (BitVec.ofNat 32 A) (BitVec.ofNat 32 r)) (IntOp.addi (BitVec.ofNat 32 A) (BitVec.ofNat 32 c))
      = if c ≤ r then 1#1 else 0#1 := by
  show BitVec.ofBool ((BitVec.ofNat 32 A + BitVec.ofNat 32 c).sle (BitVec.ofNat 32 A + BitVec.ofNat 32 r)) = _
  rw [← BitVec.ofNat_add, ← BitVec.ofNat_add]
  have hx : ∀ k : ℕ, k < 2147483648 → (BitVec.ofNat 32 k).toInt = (k : Int) := by
    intro k hk
    rw [BitVec.toInt_eq_toNat_cond, BitVec.toNat_ofNat]
    have : k % 2 ^ 32 = k := Nat.mod_eq_of_lt (by omega)
    rw [this]
    split
    · rfl
    · omega
  rw [BitVec.sle_eq_decide, hx _ hr, hx _ hc]
  by_cases h : c ≤ r
  · rw [if_pos h]
    simp [h]
  · rw [if_neg h]
    simp [h]

theorem mask_idx (n : ℕ) (hn : n < 8) (v9 v10 : BitVec 32) (h9 : v9 = BitVec.ofNat 32 (512 * n))
    (h10 : v10 = BitVec.ofNat 32 (512 * n)) (s : FVec Ideal S1x512x512 .f32) :
    sq (k1_pay9 v9 v10 s) = sqM s := by
  subst h9 h10
  funext r c
  have hr := r.isLt
  have hc := c.isLt
  unfold sq sqM k1_pay9
  show Scalar.select (IntOp.cmpi .sge
      (IntOp.addi (BitVec.ofNat 32 (512 * n)) (iota .tc S1x512x512 32 [1] iota_S1x512x512_d1_w32 (ix3 (0 : Fin 1) r c)))
      (IntOp.addi (BitVec.ofNat 32 (512 * n)) (iota .tc S1x512x512 32 [2] iota_S1x512x512_d2_w32 (ix3 (0 : Fin 1) r c))))
      (s (ix3 (0 : Fin 1) r c)) (Named.named (F := Ideal) κ "neg_big" (φ := .f32) 0xFF333332#32) = _
  rw [iota_single_apply, iota_single_apply, neg_big]
  show Scalar.select (IntOp.cmpi .sge (IntOp.addi _ (BitVec.ofNat 32 r.val)) (IntOp.addi _ (BitVec.ofNat 32 c.val))) _ _ = _
  rw [sge_pos (512 * n) r.val c.val (by omega) (by omega)]
  by_cases h : c ≤ r
  · have h' : c.val ≤ r.val := h
    rw [if_pos h', select_one]
    first | exact (if_pos h).symm | rfl
  · have h' : ¬ c.val ≤ r.val := h
    rw [if_neg h', select_zero]
    first | exact (if_neg h).symm | rfl

theorem diag_m (n : ℕ) (hn : n < 8) (v9 v10 : BitVec 32) (h9 : v9 = BitVec.ofNat 32 (512 * n))
    (h10 : v10 = BitVec.ofNat 32 (512 * n)) (s : FVec Ideal S1x512x512 .f32) (v : FVec Ideal S1x512x1024 .bf16)
    (xs0 xs1 : FVec Ideal S1x512x1 .f32) (xs2 : FVec Ideal S1x512x1024 .f32) :
    col (k1_pay6 (k1_pay10 v9 v10 s xs0)) = (Cert.Spec.step (sqM s) (mat v) (stOf xs0 xs1 xs2)).m := by
  have h : k1_pay6 (k1_pay10 v9 v10 s xs0) = k1_pay7 (k1_pay15 (k1_pay9 v9 v10 s) xs0) := rfl
  rw [h, plain_m (k1_pay9 v9 v10 s) v xs0 xs1 xs2, mask_idx n hn v9 v10 h9 h10 s]

theorem diag_l (n : ℕ) (hn : n < 8) (v9 v10 : BitVec 32) (h9 : v9 = BitVec.ofNat 32 (512 * n))
    (h10 : v10 = BitVec.ofNat 32 (512 * n)) (s : FVec Ideal S1x512x512 .f32) (v : FVec Ideal S1x512x1024 .bf16)
    (xs0 xs1 : FVec Ideal S1x512x1 .f32) (xs2 : FVec Ideal S1x512x1024 .f32) :
    col (k1_pay13 v9 v10 s xs0 xs0 xs1) = (Cert.Spec.step (sqM s) (mat v) (stOf xs0 xs1 xs2)).l := by
  have h : k1_pay13 v9 v10 s xs0 xs0 xs1 = k1_pay18 (k1_pay9 v9 v10 s) xs0 xs0 xs1 := rfl
  rw [h, plain_l (k1_pay9 v9 v10 s) v xs0 xs1 xs2, mask_idx n hn v9 v10 h9 h10 s]

theorem diag_acc (n : ℕ) (hn : n < 8) (v9 v10 : BitVec 32) (h9 : v9 = BitVec.ofNat 32 (512 * n))
    (h10 : v10 = BitVec.ofNat 32 (512 * n)) (s : FVec Ideal S1x512x512 .f32) (v : FVec Ideal S1x512x1024 .bf16)
    (xs0 xs1 : FVec Ideal S1x512x1 .f32) (xs2 : FVec Ideal S1x512x1024 .f32) :
    mat (k1_pay5 (k1_pay14 v9 v10 s xs0 xs0 xs2 v)) = (Cert.Spec.step (sqM s) (mat v) (stOf xs0 xs1 xs2)).acc := by
  have h : k1_pay5 (k1_pay14 v9 v10 s xs0 xs0 xs2 v) = k1_pay19 (k1_pay9 v9 v10 s) xs0 xs0 xs2 v := rfl
  rw [h, plain_acc (k1_pay9 v9 v10 s) v xs0 xs1 xs2, mask_idx n hn v9 v10 h9 h10 s]

theorem ofBits_10000 : Ideal.ofBits .f32 0x461C4000#32 = ((10000 : ℝ) : EReal) := by
  simp [Ideal.ofBits, Ideal.ieee, -EReal.coe_mul]; norm_num

theorem out_idx (acc : FVec Ideal S1x512x1024 .f32) (l : FVec Ideal S1x512x1 .f32) :
    mat (k1_pay8 acc l) = fun r a => Cert.Spec.round4 (Ideal.div (mat acc r a) (col l r)) := by
  funext r a
  unfold mat k1_pay8 Cert.Spec.round4 col
  show Ideal.div (Ideal.liftRound Ideal.roundHalfEven
      (Ideal.div (acc (ix3 (0 : Fin 1) r a)) (broadcastTo S1x512x1024 l broadcasts_S1x512x1_S1x512x1024 (ix3 (0 : Fin 1) r a))
        * Ideal.ofBits .f32 0x461C4000#32)) (Ideal.ofBits .f32 0x461C4000#32) = _
  rw [broadcastTo_1b1_1bn_apply, ofBits_10000]

end Cert.KernelIdeal.Hand

end
-- ==== Proof.Online.lean ====
import proofs.«407511_j23811298689314_3_alg».proof.Proof.Spec
import Mathlib.Algebra.BigOperators.Fin
import Mathlib.Logic.Equiv.Fin.Basic

/- The blockwise evaluation is the row softmax: after key blocks 0 … j the state holds the maximum, the exponential sum and the weighted
   sum over exactly those positions (induction on j; exp (a - b) · exp (c - a) = exp (c - b) for reals, exp (-∞) = 0 kills what the first
   block starts from and every masked score); after the diagonal block those are all unmasked keys of the row. -/

noncomputable section

namespace Cert.Spec

open Idealize.ShloMosaic Finset

theorem IsReal.eq_coe_toReal {y : EReal} (h : IsReal y) : y = ((y.toReal : ℝ) : EReal) := by
  obtain ⟨r, rfl⟩ := h
  rfl

theorem IsReal.mul {y z : EReal} (hy : IsReal y) (hz : IsReal z) : IsReal (y * z) := by
  obtain ⟨r, rfl⟩ := hy
  obtain ⟨t, rfl⟩ := hz
  exact ⟨r * t, (EReal.coe_mul r t).symm⟩

theorem IsReal.add {y z : EReal} (hy : IsReal y) (hz : IsReal z) : IsReal (y + z) := by
  obtain ⟨r, rfl⟩ := hy
  obtain ⟨t, rfl⟩ := hz
  exact ⟨r + t, (EReal.coe_add r t).symm⟩

theorem IsReal.sum {ι : Type*} (s : Finset ι) (f : ι → EReal) (h : ∀ i ∈ s, IsReal (f i)) :
    IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section
variable (x : X3) (wq wk wv : W2)

theorem isReal_proj (w : W2) (hx : ∀ b t e, IsReal (x b t e)) (hw : ∀ a e, IsReal (w a e))
    (b : Fin 4) (t : Fin 4096) (a : Fin 1024) : IsReal (proj x w b t a) :=
  IsReal.sum _ _ fun e _ => (hx b t e).mul (hw a e)

theorem isReal_score (hF : Finite x wq wk wv) (b : Fin 4) (q k : Fin 4096) :
    IsReal (score x wq wk b q k) :=
  IsReal.sum _ _ fun a _ =>
    ((isReal_proj x wq hF.x hF.wq b q a).mul ⟨_, rfl⟩).mul (isReal_proj x wk hF.x hF.wk b k a)

def scR (b : Fin 4) (q k : Fin 4096) : ℝ := (score x wq wk b q k).toReal

def pvR (b : Fin 4) (k : Fin 4096) (a : Fin 1024) : ℝ := (proj x wv b k a).toReal

theorem score_eq_coe (hF : Finite x wq wk wv) (b : Fin 4) (q k : Fin 4096) :
    score x wq wk b q k = (scR x wq wk b q k : EReal) :=
  (isReal_score x wq wk wv hF b q k).eq_coe_toReal

theorem projv_eq_coe (hF : Finite x wq wk wv) (b : Fin 4) (k : Fin 4096) (a : Fin 1024) :
    proj x wv b k a = (pvR x wv b k a : EReal) :=
  (isReal_proj x wv hF.x hF.wv b k a).eq_coe_toReal

def wR (b : Fin 4) (q k : Fin 4096) (M : ℝ) : ℝ :=
  if k ≤ q then Real.exp (scR x wq wk b q k - M) else 0

theorem exp_mscore_sub (hF : Finite x wq wk wv) (b : Fin 4) (q k : Fin 4096) (M : ℝ) :
    Ideal.exp (mscore x wq wk b q k - (M : EReal)) = (wR x wq wk b q k M : EReal) := by
  unfold mscore wR
  split_ifs with h
  · rw [score_eq_coe x wq wk wv hF, ← EReal.coe_sub, Ideal.exp_coe]
  · rw [EReal.bot_sub, Ideal.exp_bot, EReal.coe_zero]

theorem wR_rescale (b : Fin 4) (q k : Fin 4096) (M M' : ℝ) :
    Real.exp (M - M') * wR x wq wk b q k M = wR x wq wk b q k M' := by
  unfold wR
  split_ifs with h
  · rw [← Real.exp_add]
    congr 1
    ring
  · rw [mul_zero]

theorem mscore_lt_top (hF : Finite x wq wk wv) (b : Fin 4) (q k : Fin 4096) :
    mscore x wq wk b q k < ⊤ := by
  unfold mscore
  split_ifs with h
  · rw [score_eq_coe x wq wk wv hF]
    exact EReal.coe_lt_top _
  · exact bot_lt_top

end

theorem pos_val (j : ℕ) (hj : j < 8) (c : Fin 512) : (pos j c).val = 512 * j + c.val := by
  have := c.isLt
  show (512 * j + c.val) % 4096 = 512 * j + c.val
  omega

theorem sum_blocks {M : Type*} [AddCommMonoid M] (f : Fin 4096 → M) :
    ∑ k : Fin 4096, f k = ∑ j ∈ range 8, ∑ c : Fin 512, f (pos j c) := by
  have e : ∑ k : Fin 4096, f k = ∑ p : Fin 8 × Fin 512, f (finProdFinEquiv p) :=
    (Equiv.sum_comp (finProdFinEquiv : Fin 8 × Fin 512 ≃ Fin (8 * 512)) f).symm
  rw [e, Fintype.sum_prod_type, ← Fin.sum_univ_eq_sum_range (fun j => ∑ c : Fin 512, f (pos j c)) 8]
  refine Finset.sum_congr rfl fun j _ => Finset.sum_congr rfl fun c _ => ?_
  congr 1
  apply Fin.ext
  rw [pos_val j.val j.isLt c]
  simp [finProdFinEquiv]
  omega

theorem sup_blocks (f : Fin 4096 → EReal) :
    univ.sup f = (range 8).sup fun j => univ.sup fun c : Fin 512 => f (pos j c) := by
  apply le_antisymm
  · refine Finset.sup_le fun k _ => ?_
    have hk := k.isLt
    have h8 : k.val / 512 < 8 := by omega
    have hc : k.val % 512 < 512 := Nat.mod_lt _ (by norm_num)
    have hp : pos (k.val / 512) ⟨k.val % 512, hc⟩ = k := by
      apply Fin.ext
      rw [pos_val _ h8]
      show 512 * (k.val / 512) + k.val % 512 = k.val
      omega
    calc f k = f (pos (k.val / 512) ⟨k.val % 512, hc⟩) := by rw [hp]
      _ ≤ univ.sup fun c : Fin 512 => f (pos (k.val / 512) c) :=
          Finset.le_sup (f := fun c : Fin 512 => f (pos (k.val / 512) c)) (Finset.mem_univ _)
      _ ≤ _ := Finset.le_sup (f := fun j => univ.sup fun c : Fin 512 => f (pos j c)) (Finset.mem_range.2 h8)
  · exact Finset.sup_le fun j _ => Finset.sup_le fun c _ => Finset.le_sup (Finset.mem_univ _)

section
variable (s : Fin 512 → Fin 512 → EReal) (v : Fin 512 → Fin 1024 → EReal) (σ : St) (r : Fin 512)

theorem step_m : (step s v σ).m r = max (σ.m r) (univ.sup (s r)) := rfl

theorem step_l (M' ρ L : ℝ) (w : Fin 512 → ℝ)
    (hM : max (σ.m r) (univ.sup (s r)) = (M' : EReal))
    (hρ : Ideal.exp (σ.m r - (M' : EReal)) = (ρ : EReal))
    (hw : ∀ c, Ideal.exp (s r c - (M' : EReal)) = (w c : EReal))
    (hL : σ.l r = (L : EReal)) :
    (step s v σ).l r = ((ρ * L + ∑ c, w c : ℝ) : EReal) := by
  show Ideal.exp (σ.m r - max (σ.m r) (univ.sup (s r))) * σ.l r
    + ∑ c : Fin 512, Ideal.exp (s r c - max (σ.m r) (univ.sup (s r))) = _
  rw [hM, hρ, hL, EReal.coe_add, EReal.coe_mul, coe_sum]
  congr 1
  exact Finset.sum_congr rfl fun c _ => hw c

theorem step_acc (a : Fin 1024) (M' ρ A : ℝ) (w V : Fin 512 → ℝ)
    (hM : max (σ.m r) (univ.sup (s r)) = (M' : EReal))
    (hρ : Ideal.exp (σ.m r - (M' : EReal)) = (ρ : EReal))
    (hw : ∀ c, Ideal.exp (s r c - (M' : EReal)) = (w c : EReal))
    (hA : σ.acc r a = (A : EReal)) (hV : ∀ c, v c a = (V c : EReal)) :
    (step s v σ).acc r a = ((ρ * A + ∑ c, w c * V c : ℝ) : EReal) := by
  show Ideal.exp (σ.m r - max (σ.m r) (univ.sup (s r))) * σ.acc r a
    + ∑ c : Fin 512, Ideal.exp (s r c - max (σ.m r) (univ.sup (s r))) * v c a = _
  rw [hM, hρ, hA, EReal.coe_add, EReal.coe_mul, coe_sum]
  congr 1
  exact Finset.sum_congr rfl fun c _ => by rw [hw c, hV c, EReal.coe_mul]

end

section
variable (x : X3) (wq wk wv : W2)

theorem stAt_zero (b : Fin 4) (qi : ℕ) :
    stAt x wq wk wv b qi 0 = step (blockScore x wq wk b qi 0) (blockVal x wv b 0) St.init := rfl

theorem stAt_succ (b : Fin 4) (qi J : ℕ) :
    stAt x wq wk wv b qi (J + 1)
      = step (blockScore x wq wk b qi (J + 1)) (blockVal x wv b (J + 1)) (stAt x wq wk wv b qi J) := rfl

def supAt (b : Fin 4) (q : Fin 4096) (j : ℕ) : EReal :=
  univ.sup fun c : Fin 512 => mscore x wq wk b q (pos j c)

def supTo (b : Fin 4) (q : Fin 4096) (J : ℕ) : EReal := (range (J + 1)).sup (supAt x wq wk b q)

def sumTo (b : Fin 4) (q : Fin 4096) (M : ℝ) (J : ℕ) : ℝ :=
  ∑ j ∈ range (J + 1), ∑ c : Fin 512, wR x wq wk b q (pos j c) M

def accTo (b : Fin 4) (q : Fin 4096) (a : Fin 1024) (M : ℝ) (J : ℕ) : ℝ :=
  ∑ j ∈ range (J + 1), ∑ c : Fin 512, wR x wq wk b q (pos j c) M * pvR x wv b (pos j c) a

theorem supAt_lt_top (hF : Finite x wq wk wv) (b : Fin 4) (q : Fin 4096) (j : ℕ) :
    supAt x wq wk b q j < ⊤ :=
  (Finset.sup_lt_iff bot_lt_top).2 fun c _ => mscore_lt_top x wq wk wv hF b q (pos j c)

theorem supTo_zero (b : Fin 4) (q : Fin 4096) : supTo x wq wk b q 0 = supAt x wq wk b q 0 := by
  unfold supTo
  rw [zero_add, Finset.range_one, Finset.sup_singleton]

theorem supTo_succ (b : Fin 4) (q : Fin 4096) (J : ℕ) :
    supTo x wq wk b q (J + 1) = max (supTo x wq wk b q J) (supAt x wq wk b q (J + 1)) := by
  show (range (J + 1 + 1)).sup (supAt x wq wk b q) = max ((range (J + 1)).sup (supAt x wq wk b q)) _
  rw [show range (J + 1 + 1) = insert (J + 1) (range (J + 1)) from Finset.range_add_one, Finset.sup_insert,
    max_comm]

theorem sumTo_rescale (b : Fin 4) (q : Fin 4096) (M M' : ℝ) (J : ℕ) :
    Real.exp (M - M') * sumTo x wq wk b q M J = sumTo x wq wk b q M' J := by
  unfold sumTo
  rw [Finset.mul_sum]
  refine Finset.sum_congr rfl fun j _ => ?_
  rw [Finset.mul_sum]
  exact Finset.sum_congr rfl fun c _ => wR_rescale x wq wk b q _ M M'

theorem accTo_rescale (b : Fin 4) (q : Fin 4096) (a : Fin 1024) (M M' : ℝ) (J : ℕ) :
    Real.exp (M - M') * accTo x wq wk wv b q a M J = accTo x wq wk wv b q a M' J := by
  unfold accTo
  rw [Finset.mul_sum]
  refine Finset.sum_congr rfl fun j _ => ?_
  rw [Finset.mul_sum]
  exact Finset.sum_congr rfl fun c _ => by rw [← mul_assoc, wR_rescale]

theorem online_inv (hF : Finite x wq wk wv) (b : Fin 4) (qi : ℕ) (r : Fin 512) (J : ℕ) :
    ∃ M : ℝ, (stAt x wq wk wv b qi J).m r = (M : EReal)
      ∧ (M : EReal) = supTo x wq wk b (pos qi r) J
      ∧ (stAt x wq wk wv b qi J).l r = (sumTo x wq wk b (pos qi r) M J : EReal)
      ∧ ∀ a, (stAt x wq wk wv b qi J).acc r a = (accTo x wq wk wv b (pos qi r) a M J : EReal) := by
  induction J with
  | zero =>
    have hlt := supAt_lt_top x wq wk wv hF b (pos qi r) 0
    have h0 : pos 0 (0 : Fin 512) ≤ pos qi r := by
      rw [Fin.le_def, pos_val 0 (by norm_num)]
      simp
    have hbot : supAt x wq wk b (pos qi r) 0 ≠ ⊥ := by
      have hle : mscore x wq wk b (pos qi r) (pos 0 0) ≤ supAt x wq wk b (pos qi r) 0 :=
        Finset.le_sup (f := fun c : Fin 512 => mscore x wq wk b (pos qi r) (pos 0 c)) (Finset.mem_univ 0)
      rw [mscore, if_pos h0, score_eq_coe x wq wk wv hF] at hle
      exact ne_bot_of_le_ne_bot (EReal.coe_ne_bot _) hle
    obtain ⟨M', hM'⟩ : ∃ M' : ℝ, supAt x wq wk b (pos qi r) 0 = (M' : EReal) :=
      ⟨_, (EReal.coe_toReal hlt.ne hbot).symm⟩
    have hmax : max (St.init.m r) (univ.sup (blockScore x wq wk b qi 0 r)) = (M' : EReal) := by
      show max ⊥ (supAt x wq wk b (pos qi r) 0) = _
      rw [max_bot_left, hM']
    have hρ : Ideal.exp (St.init.m r - (M' : EReal)) = ((0 : ℝ) : EReal) := by
      show Ideal.exp (⊥ - (M' : EReal)) = _
      rw [EReal.bot_sub, Ideal.exp_bot, EReal.coe_zero]
    have hw : ∀ c, Ideal.exp (blockScore x wq wk b qi 0 r c - (M' : EReal))
        = (wR x wq wk b (pos qi r) (pos 0 c) M' : EReal) :=
      fun c => exp_mscore_sub x wq wk wv hF b (pos qi r) (pos 0 c) M'
    refine ⟨M', ?_, ?_, ?_, fun a => ?_⟩
    · rw [stAt_zero, step_m, hmax]
    · rw [supTo_zero, hM']
    · rw [stAt_zero, step_l _ _ _ r M' 0 0 _ hmax hρ hw EReal.coe_zero.symm]
      congr 1
      simp only [sumTo, zero_add, zero_mul, Finset.sum_range_one]
    · rw [stAt_zero, step_acc (blockScore x wq wk b qi 0) (blockVal x wv b 0) St.init r a M' 0 0 _
        (fun c => pvR x wv b (pos 0 c) a) hmax hρ hw
        EReal.coe_zero.symm (fun c => projv_eq_coe x wq wk wv hF b (pos 0 c) a)]
      congr 1
      simp only [accTo, zero_add, zero_mul, Finset.sum_range_one]
  | succ J ih =>
    obtain ⟨M, hm, hsup, hl, hacc⟩ := ih
    have hlt := supAt_lt_top x wq wk wv hF b (pos qi r) (J + 1)
    obtain ⟨M', hM'⟩ : ∃ M' : ℝ, max (M : EReal) (supAt x wq wk b (pos qi r) (J + 1)) = (M' : EReal) := by
      refine ⟨_, (EReal.coe_toReal ?_ ?_).symm⟩
      · exact (max_lt (EReal.coe_lt_top M) hlt).ne
      · exact ne_bot_of_le_ne_bot (EReal.coe_ne_bot M) (le_max_left _ _)
    have hmax : max ((stAt x wq wk wv b qi J).m r) (univ.sup (blockScore x wq wk b qi (J + 1) r))
        = (M' : EReal) := by
      rw [hm]
      exact hM'
    have hρ : Ideal.exp ((stAt x wq wk wv b qi J).m r - (M' : EReal)) = ((Real.exp (M - M') : ℝ) : EReal) := by
      rw [hm, ← EReal.coe_sub, Ideal.exp_coe]
    have hw : ∀ c, Ideal.exp (blockScore x wq wk b qi (J + 1) r c - (M' : EReal))
        = (wR x wq wk b (pos qi r) (pos (J + 1) c) M' : EReal) :=
      fun c => exp_mscore_sub x wq wk wv hF b (pos qi r) (pos (J + 1) c) M'
    refine ⟨M', ?_, ?_, ?_, fun a => ?_⟩
    · rw [stAt_succ, step_m, hmax]
    · rw [supTo_succ, ← hsup, hM']
    · rw [stAt_succ, step_l _ _ _ r M' _ _ _ hmax hρ hw hl]
      congr 1
      rw [sumTo_rescale]
      exact (Finset.sum_range_succ _ _).symm
    · rw [stAt_succ, step_acc (blockScore x wq wk b qi (J + 1)) (blockVal x wv b (J + 1)) (stAt x wq wk wv b qi J) r a M' _ _ _
        (fun c => pvR x wv b (pos (J + 1) c) a) hmax hρ hw
        (hacc a) (fun c => projv_eq_coe x wq wk wv hF b (pos (J + 1) c) a)]
      congr 1
      rw [accTo_rescale]
      exact (Finset.sum_range_succ _ _).symm

theorem not_pos_le (qi : ℕ) (hqi : qi < 8) (r : Fin 512) (j : ℕ) (hj : j < 8) (h : ¬ j < qi + 1)
    (c : Fin 512) : ¬ pos j c ≤ pos qi r := by
  rw [Fin.le_def, pos_val j hj, pos_val qi hqi]
  have := r.isLt
  omega

theorem sum_to_eq (f : Fin 4096 → ℝ) (qi : ℕ) (hqi : qi < 8) (r : Fin 512)
    (hf : ∀ k, ¬ k ≤ pos qi r → f k = 0) :
    ∑ j ∈ range (qi + 1), ∑ c : Fin 512, f (pos j c) = ∑ k, f k := by
  rw [sum_blocks]
  refine Finset.sum_subset (Finset.range_mono (by omega)) fun j hj hn => ?_
  exact Finset.sum_eq_zero fun c _ =>
    hf _ (not_pos_le qi hqi r j (Finset.mem_range.1 hj) (fun h => hn (Finset.mem_range.2 h)) c)

theorem supTo_eq_rowMax (b : Fin 4) (qi : ℕ) (hqi : qi < 8) (r : Fin 512) :
    supTo x wq wk b (pos qi r) qi = rowMax x wq wk b (pos qi r) := by
  unfold rowMax
  rw [sup_blocks]
  apply le_antisymm
  · exact Finset.sup_mono (Finset.range_mono (by omega))
  · refine Finset.sup_le fun j hj => ?_
    by_cases h : j < qi + 1
    · exact Finset.le_sup (f := supAt x wq wk b (pos qi r)) (Finset.mem_range.2 h)
    · refine Finset.sup_le fun c _ => ?_
      rw [mscore, if_neg (not_pos_le qi hqi r j (Finset.mem_range.1 hj) h c)]
      exact bot_le

end

section
variable {x : X3} {wq wk wv : W2}

theorem blockOut_eq_G (hF : Finite x wq wk wv) (b : Fin 4) (qi : ℕ) (hqi : qi < 8) (r : Fin 512)
    (a : Fin 1024) : blockOut x wq wk wv b qi r a = G x wq wk wv b (pos qi r) a := by
  obtain ⟨M, -, hsup, hl, hacc⟩ := online_inv x wq wk wv hF b qi r qi
  have hmax : rowMax x wq wk b (pos qi r) = (M : EReal) := by
    rw [hsup, supTo_eq_rowMax x wq wk b qi hqi r]
  have hS : rowSum x wq wk b (pos qi r) = (stAt x wq wk wv b qi qi).l r := by
    have e : ∀ k, wgt x wq wk b (pos qi r) k = (wR x wq wk b (pos qi r) k M : EReal) := fun k => by
      unfold wgt
      rw [hmax, exp_mscore_sub x wq wk wv hF]
    unfold rowSum
    rw [hl, Finset.sum_congr rfl fun k _ => e k, ← coe_sum]
    congr 1
    exact (sum_to_eq (fun k => wR x wq wk b (pos qi r) k M) qi hqi r fun k hk => if_neg hk).symm
  have hA : rowAcc x wq wk wv b (pos qi r) a = (stAt x wq wk wv b qi qi).acc r a := by
    have e : ∀ k, wgt x wq wk b (pos qi r) k * proj x wv b k a
        = ((wR x wq wk b (pos qi r) k M * pvR x wv b k a : ℝ) : EReal) := fun k => by
      unfold wgt
      rw [hmax, exp_mscore_sub x wq wk wv hF, projv_eq_coe x wq wk wv hF, EReal.coe_mul]
    unfold rowAcc
    rw [hacc a, Finset.sum_congr rfl fun k _ => e k, ← coe_sum]
    congr 1
    exact (sum_to_eq (fun k => wR x wq wk b (pos qi r) k M * pvR x wv b k a) qi hqi r fun k hk => by
      show wR x wq wk b (pos qi r) k M * _ = 0
      rw [wR, if_neg hk, zero_mul]).symm
  unfold blockOut G
  rw [hS, hA]

end

end Cert.Spec

end
-- ==== Proof.Coords.lean ====
import proofs.«407511_j23811298689314_3_alg».proof.Proof.Spec
import Idealize.ShloMosaic.Lib.ValueIdx

-- the argument arrays read by coordinates

noncomputable section

namespace Cert.Spec

open Idealize.ShloMosaic

def x3 (u : (⟨3, ![4, 4096, 1024]⟩ : Shape).Idx → EReal) : X3 := fun b t e => u (ValueIdx.ix3 b t e)

def w2 (u : (⟨2, ![1024, 1024]⟩ : Shape).Idx → EReal) : W2 := fun a e => u (ValueIdx.ix2 a e)

end Cert.Spec

end
-- ==== Proof.R1Value.lean ====
import proofs.«407511_j23811298689314_3_alg».proof.Proof.R1Data
import proofs.«407511_j23811298689314_3_alg».proof.Proof.R1Pieces
import proofs.«407511_j23811298689314_3_alg».proof.Proof.R1PayIdx
import proofs.«407511_j23811298689314_3_alg».proof.Proof.Sched
import proofs.«407511_j23811298689314_3_alg».proof.Proof.Online
import proofs.«407511_j23811298689314_3_alg».proof.Proof.Coords
import Idealize.ShloMosaic.Lib.Pipeline.Value
import Idealize.ShloMosaic.Lib.ValueIdx

set_option maxRecDepth 16384

noncomputable section

namespace Cert.Spec

theorem pos_le_of_lt {kj qi : ℕ} (h : kj < qi) (hq : qi < 8) (r c : Fin 512) : pos kj c ≤ pos qi r := by
  rw [Fin.le_def, pos_val _ (by omega), pos_val _ hq]
  have := c.isLt
  omega

theorem pos_le_diag {q : ℕ} (hq : q < 8) (r c : Fin 512) : pos q c ≤ pos q r ↔ c ≤ r := by
  rw [Fin.le_def, Fin.le_def, pos_val _ hq, pos_val _ hq]
  omega

variable (x : X3) (wq wk : W2)

theorem blockScore_off (b : Fin 4) {qi kj : ℕ} (h : kj < qi) (hq : qi < 8) :
    blockScore x wq wk b qi kj = fun r c => score x wq wk b (pos qi r) (pos kj c) := by
  funext r c
  exact if_pos (pos_le_of_lt h hq r c)

theorem blockScore_diag (b : Fin 4) {q : ℕ} (hq : q < 8) :
    blockScore x wq wk b q q = fun r c => if c ≤ r then score x wq wk b (pos q r) (pos q c) else ⊥ := by
  funext r c
  show (if pos q c ≤ pos q r then _ else _) = _
  simp only [pos_le_diag hq]

end Cert.Spec

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section Blocks
variable {F : FTy → Type} [FloatOps F] [Named F]

theorem emb0 (t : Fin (cfgM (F := F)).N) (r : Fin 512) (a : Fin 1024) :
    (((cfgM (F := F)).win 0).blk t).view.emb (ix3 (0 : Fin 1) r a)
      = ix3 (bOf t) (Cert.Spec.pos (qiN t) r) a := by
  funext d; apply Fin.ext
  have hq := (ki_le_qi t).2
  have hk := (ki_le_qi t).1
  match d with
  | ⟨0, _⟩ =>
    show ((cfgM (F := F)).win 0).index t (0 : Fin 3) * 1 + 1 * 0 = (bOf t).val
    rw [index0]; show (bOf t).val * 1 + 1 * 0 = _; omega
  | ⟨1, _⟩ =>
    show ((cfgM (F := F)).win 0).index t (1 : Fin 3) * 512 + 1 * r.val = (Cert.Spec.pos (qiN t) r).val
    rw [index0, Cert.Spec.pos_val _ (by omega)]; show qiN t * 512 + 1 * r.val = _; omega
  | ⟨2, _⟩ =>
    show ((cfgM (F := F)).win 0).index t (2 : Fin 3) * 1024 + 1 * a.val = a.val
    rw [index0]; show 0 * 1024 + 1 * a.val = _; omega

theorem emb1 (t : Fin (cfgM (F := F)).N) (r : Fin 512) (a : Fin 1024) :
    (((cfgM (F := F)).win 1).blk t).view.emb (ix3 (0 : Fin 1) r a)
      = ix3 (bOf t) (Cert.Spec.pos (kiN t) r) a := by
  funext d; apply Fin.ext
  have hq := (ki_le_qi t).2
  have hk := (ki_le_qi t).1
  match d with
  | ⟨0, _⟩ =>
    show ((cfgM (F := F)).win 1).index t (0 : Fin 3) * 1 + 1 * 0 = (bOf t).val
    rw [index1]; show (bOf t).val * 1 + 1 * 0 = _; omega
  | ⟨1, _⟩ =>
    show ((cfgM (F := F)).win 1).index t (1 : Fin 3) * 512 + 1 * r.val = (Cert.Spec.pos (kiN t) r).val
    rw [index1, Cert.Spec.pos_val _ (by omega)]; show kiN t * 512 + 1 * r.val = _; omega
  | ⟨2, _⟩ =>
    show ((cfgM (F := F)).win 1).index t (2 : Fin 3) * 1024 + 1 * a.val = a.val
    rw [index1]; show 0 * 1024 + 1 * a.val = _; omega

theorem emb2 (t : Fin (cfgM (F := F)).N) (r : Fin 512) (a : Fin 1024) :
    (((cfgM (F := F)).win 2).blk t).view.emb (ix3 (0 : Fin 1) r a)
      = ix3 (bOf t) (Cert.Spec.pos (kiN t) r) a := by
  funext d; apply Fin.ext
  have hq := (ki_le_qi t).2
  have hk := (ki_le_qi t).1
  match d with
  | ⟨0, _⟩ =>
    show ((cfgM (F := F)).win 2).index t (0 : Fin 3) * 1 + 1 * 0 = (bOf t).val
    rw [index2]; show (bOf t).val * 1 + 1 * 0 = _; omega
  | ⟨1, _⟩ =>
    show ((cfgM (F := F)).win 2).index t (1 : Fin 3) * 512 + 1 * r.val = (Cert.Spec.pos (kiN t) r).val
    rw [index2, Cert.Spec.pos_val _ (by omega)]; show kiN t * 512 + 1 * r.val = _; omega
  | ⟨2, _⟩ =>
    show ((cfgM (F := F)).win 2).index t (2 : Fin 3) * 1024 + 1 * a.val = a.val
    rw [index2]; show 0 * 1024 + 1 * a.val = _; omega

theorem emb3 (t : Fin (cfgM (F := F)).N) (r : Fin 512) (a : Fin 1024) :
    (((cfgM (F := F)).win 3).blk t).view.emb (ix3 (0 : Fin 1) r a)
      = ix3 (bOf t) (Cert.Spec.pos (qiN t) r) a := by
  funext d; apply Fin.ext
  have hq := (ki_le_qi t).2
  have hk := (ki_le_qi t).1
  match d with
  | ⟨0, _⟩ =>
    show ((cfgM (F := F)).win 3).index t (0 : Fin 3) * 1 + 1 * 0 = (bOf t).val
    rw [index3]; show (bOf t).val * 1 + 1 * 0 = _; omega
  | ⟨1, _⟩ =>
    show ((cfgM (F := F)).win 3).index t (1 : Fin 3) * 512 + 1 * r.val = (Cert.Spec.pos (qiN t) r).val
    rw [index3, Cert.Spec.pos_val _ (by omega)]; show qiN t * 512 + 1 * r.val = _; omega
  | ⟨2, _⟩ =>
    show ((cfgM (F := F)).win 3).index t (2 : Fin 3) * 1024 + 1 * a.val = a.val
    rw [index3]; show 0 * 1024 + 1 * a.val = _; omega

theorem mem_blk3 (t : Fin (cfgM (F := F)).N) (i : S4x4096x1024.Idx) :
    i ∈ (((cfgM (F := F)).win 3).blk t).view.set ↔ ∀ a : Fin 3, ((cfgM (F := F)).win 3).index t a * S1x512x1024.size a ≤ (i a).val ∧ (i a).val < ((cfgM (F := F)).win 3).index t a * S1x512x1024.size a + S1x512x1024.size a :=
  (Finset.ext_iff.mp (View.set_slice_whole main_v9 (((cfgM (F := F)).win 3).rect t)) i).trans Rect.mem_set_unit

theorem cover3 (i : S4x4096x1024.Idx) :
    ∃ t : Fin (cfgM (F := F)).N, ((cfgM (F := F)).win 3).flush t = true ∧ i ∈ (((cfgM (F := F)).win 3).blk t).view.set := by
  have h0 : (i 0).val < 4 := (i 0).isLt
  have h1 : (i 1).val < 4096 := (i 1).isLt
  have h2 : (i 2).val < 1024 := (i 2).isLt
  obtain ⟨t, hb, hq, hk⟩ := cover ⟨(i 0).val, h0⟩ ⟨(i 1).val / 512, by omega⟩
  refine ⟨t, (flush3 t).mpr (hk.trans hq.symm), ?_⟩
  rw [mem_blk3]
  have hb' : (bOf t).val = (i 0).val := congrArg Fin.val hb
  have hq' : qiN t = (i 1).val / 512 := hq
  intro a
  match a with
  | ⟨0, _⟩ =>
    show ((cfgM (F := F)).win 3).index t (0 : Fin 3) * 1 ≤ (i 0).val ∧ (i 0).val < ((cfgM (F := F)).win 3).index t (0 : Fin 3) * 1 + 1
    rw [index3]; show (bOf t).val * 1 ≤ _ ∧ _ < (bOf t).val * 1 + 1; omega
  | ⟨1, _⟩ =>
    show ((cfgM (F := F)).win 3).index t (1 : Fin 3) * 512 ≤ (i 1).val ∧ (i 1).val < ((cfgM (F := F)).win 3).index t (1 : Fin 3) * 512 + 512
    rw [index3]; show qiN t * 512 ≤ _ ∧ _ < qiN t * 512 + 512; omega
  | ⟨2, _⟩ =>
    show ((cfgM (F := F)).win 3).index t (2 : Fin 3) * 1024 ≤ (i 2).val ∧ (i 2).val < ((cfgM (F := F)).win 3).index t (2 : Fin 3) * 1024 + 1024
    rw [index3]; show 0 * 1024 ≤ _ ∧ _ < 0 * 1024 + 1024; omega

end Blocks

theorem rowOff_q : ∀ t : Fin grid1.N, Scalar.muli (qiW t) 512#32 = BitVec.ofNat 32 (512 * qiN t) := by decide +kernel

theorem rowOff_k : ∀ t : Fin grid1.N, kiN t = qiN t → Scalar.muli (kiW t) 512#32 = BitVec.ofNat 32 (512 * qiN t) := by decide +kernel

theorem ki_lt_qi (t : Fin grid1.N) (h : kiN t ≠ qiN t) : kiN t < qiN t := lt_of_le_of_ne (ki_le_qi t).1 h

-- states that follow the schedule's runs are the blockwise evaluation's: key block 0 folds into the initial state, any other into the state of the point before (same batch and query block, the key block before)
theorem inv_of_step (x : Cert.Spec.X3) (wq wk wv : Cert.Spec.W2) (S : (n : ℕ) → n < grid1.N → Cert.Spec.St)
    (hstep : ∀ t : Fin grid1.N, S t.val t.isLt = Cert.Spec.step (Cert.Spec.blockScore x wq wk (bOf t) (qiN t) (kiN t)) (Cert.Spec.blockVal x wv (bOf t) (kiN t))
      (if kiN t = 0 then Cert.Spec.St.init else S (t.val - 1) (Nat.lt_of_le_of_lt (Nat.sub_le _ _) t.isLt))) :
    ∀ t : Fin grid1.N, S t.val t.isLt = Cert.Spec.stAt x wq wk wv (bOf t) (qiN t) (kiN t) := by
  intro t
  obtain ⟨n, hn⟩ : ∃ n, t.val = n := ⟨_, rfl⟩
  induction n using Nat.strong_induction_on generalizing t with
  | _ n ih =>
    rw [hstep t]
    by_cases hk : kiN t = 0
    · rw [if_pos hk, hk]
      exact (Cert.Spec.stAt_zero x wq wk wv (bOf t) (qiN t)).symm
    · obtain ⟨hp, hb, hq, hkk⟩ := pred t hk
      have hprev : S (t.val - 1) (Nat.lt_of_le_of_lt (Nat.sub_le _ _) t.isLt)
          = Cert.Spec.stAt x wq wk wv (bOf ⟨t.val - 1, by omega⟩) (qiN ⟨t.val - 1, by omega⟩) (kiN ⟨t.val - 1, by omega⟩) :=
        ih (t.val - 1) (by omega) ⟨t.val - 1, by omega⟩ rfl
      rw [if_neg hk, hprev, hb, hq, ← hkk]
      exact (Cert.Spec.stAt_succ x wq wk wv (bOf t) (qiN t) (kiN ⟨t.val - 1, by omega⟩)).symm

theorem stOf_eq {a b : FVec Ideal S1x512x1 .f32} {d : FVec Ideal S1x512x1024 .f32} {σ : Cert.Spec.St}
    (h0 : col a = σ.m) (h1 : col b = σ.l) (h2 : mat d = σ.acc) : stOf a b d = σ := by
  cases σ; cases h0; cases h1; cases h2; rfl

theorem sqM_pay4 (q k : FVec Ideal S1x512x1024 .bf16) :
    sqM (k1_pay4 q k) = fun r j => if j ≤ r then ∑ a : Fin 1024, mat q r a * mat k j a else ⊥ := by
  unfold sqM; rw [pay4_idx]

section Cases
variable (x0 x1 x2 : FVec Ideal S1x512x1024 .bf16) (xs0 xs1 : FVec Ideal S1x512x1 .f32) (xs2 : FVec Ideal S1x512x1024 .f32)

-- key block before the query block: the plain step over the state found
theorem stD : stOf (k1_pay7 (k1_pay15 (k1_pay4 x0 x1) xs0)) (k1_pay18 (k1_pay4 x0 x1) xs0 xs0 xs1) (k1_pay19 (k1_pay4 x0 x1) xs0 xs0 xs2 x2)
      = Cert.Spec.step (fun r j => ∑ a : Fin 1024, mat x0 r a * mat x1 j a) (mat x2) (stOf xs0 xs1 xs2) := by
  rw [← pay4_idx]
  exact stOf_eq (plain_m _ x2 xs0 xs1 xs2) (plain_l _ x2 xs0 xs1 xs2) (plain_acc _ x2 xs0 xs1 xs2)

-- key block the query block, whose first row is `512 n`: the masked step over the state found
theorem stC (v9 v10 : BitVec 32) (n : ℕ) (hn : n < 8) (h9 : v9 = BitVec.ofNat 32 (512 * n)) (h10 : v10 = BitVec.ofNat 32 (512 * n)) :
    stOf (k1_pay6 (k1_pay10 v9 v10 (k1_pay4 x0 x1) xs0)) (k1_pay13 v9 v10 (k1_pay4 x0 x1) xs0 xs0 xs1) (k1_pay5 (k1_pay14 v9 v10 (k1_pay4 x0 x1) xs0 xs0 xs2 x2))
      = Cert.Spec.step (fun r j => if j ≤ r then ∑ a : Fin 1024, mat x0 r a * mat x1 j a else ⊥) (mat x2) (stOf xs0 xs1 xs2) := by
  rw [← sqM_pay4]
  exact stOf_eq (diag_m n hn _ _ h9 h10 _ x2 xs0 xs1 xs2) (diag_l n hn _ _ h9 h10 _ x2 xs0 xs1 xs2) (diag_acc n hn _ _ h9 h10 _ x2 xs0 xs1 xs2)

end Cases

section AtPoint

variable (V : (c : Dev nD) → (b : Ref sig .tc) → Buf (Elt Ideal) ((c : Thread nD τ).loc b)) (c : Dev nD)
variable (X : Cert.Spec.X3) (Wq Wk Wv : Cert.Spec.W2)

abbrev st4 (o : Vec Ideal S1x512x1024 .f32 × Vec Ideal S1x512x1 .f32 × Vec Ideal S1x512x1 .f32 × Vec Ideal S1x512x1024 .f32) : Cert.Spec.St :=
  stOf o.2.1 o.2.2.1 o.2.2.2

theorem out_A (t : Fin (cfgM (F := Ideal)).N) (c0 : c0At (F := Ideal) c t) (c1 : c1At (F := Ideal) c t) :
    mat (φ := .f32) (outsAt1 (F := Ideal) V c t.val t.isLt).1 = fun r a => Cert.Spec.round4 (Ideal.div
      ((st4 (outsAt1 (F := Ideal) V c t.val t.isLt)).acc r a) ((st4 (outsAt1 (F := Ideal) V c t.val t.isLt)).l r)) := by
  rw [outsAt1_A V c t c0 c1]
  dsimp only [st4]
  rw [show leaves1 (runA1 V c t c0 c1) = _ from leaves1_A _ _ _ _ _ _ _ _ _ _ _ _ _ _ _ _ _ _ _ _ _ _ _ _]
  exact out_idx _ _

theorem out_C (t : Fin (cfgM (F := Ideal)).N) (c0 : ¬c0At (F := Ideal) c t) (c1 : c1At (F := Ideal) c t) :
    mat (φ := .f32) (outsAt1 (F := Ideal) V c t.val t.isLt).1 = fun r a => Cert.Spec.round4 (Ideal.div
      ((st4 (outsAt1 (F := Ideal) V c t.val t.isLt)).acc r a) ((st4 (outsAt1 (F := Ideal) V c t.val t.isLt)).l r)) := by
  rw [outsAt1_C V c t c0 c1]
  dsimp only [st4]
  rw [show leaves1 (runC1 V c t c0 c1 (prev1 V c t)) = _ from leaves1_C _ _ _ _ _ _ _ _ _ _ _ _ _ _ _ _ _ _ _ _ _ _ _ _ _ _ _]
  exact out_idx _ _

section Reads
variable (hq : ∀ (b : Fin 4) (t : Fin 4096) (a : Fin 1024), (V c main_v6 : S4x4096x1024.Idx → EReal) (ix3 b t a) = Cert.Spec.proj X Wq b t a * ((1 / 32 : ℝ) : EReal))
variable (hk : ∀ (b : Fin 4) (t : Fin 4096) (a : Fin 1024), (V c main_v7 : S4x4096x1024.Idx → EReal) (ix3 b t a) = Cert.Spec.proj X Wk b t a)
variable (hv : ∀ (b : Fin 4) (t : Fin 4096) (a : Fin 1024), (V c main_v8 : S4x4096x1024.Idx → EReal) (ix3 b t a) = Cert.Spec.proj X Wv b t a)

include hq in

theorem read0 (t : Fin (cfgM (F := Ideal)).N) (r : Fin 512) (a : Fin 1024) :
    mat (φ := .bf16) (iblk1 (F := Ideal) V c 0 t) r a = Cert.Spec.proj X Wq (bOf t) (Cert.Spec.pos (qiN t) r) a * ((1 / 32 : ℝ) : EReal) :=
  (congrArg (V c main_v6 : S4x4096x1024.Idx → EReal) (emb0 (F := Ideal) t r a)).trans (hq _ _ _)

include hk in

theorem read1 (t : Fin (cfgM (F := Ideal)).N) (r : Fin 512) (a : Fin 1024) :
    mat (φ := .bf16) (iblk1 (F := Ideal) V c 1 t) r a = Cert.Spec.proj X Wk (bOf t) (Cert.Spec.pos (kiN t) r) a :=
  (congrArg (V c main_v7 : S4x4096x1024.Idx → EReal) (emb1 (F := Ideal) t r a)).trans (hk _ _ _)

include hv in

theorem read2 (t : Fin (cfgM (F := Ideal)).N) :
    mat (φ := .bf16) (iblk1 (F := Ideal) V c 2 t) = Cert.Spec.blockVal X Wv (bOf t) (kiN t) := by
  funext r a
  exact (congrArg (V c main_v8 : S4x4096x1024.Idx → EReal) (emb2 (F := Ideal) t r a)).trans (hv _ _ _)

include hq hk in

theorem scoreBlk (t : Fin (cfgM (F := Ideal)).N) (r j : Fin 512) :
    (∑ a : Fin 1024, mat (φ := .bf16) (iblk1 (F := Ideal) V c 0 t) r a * mat (φ := .bf16) (iblk1 (F := Ideal) V c 1 t) j a)
      = Cert.Spec.score X Wq Wk (bOf t) (Cert.Spec.pos (qiN t) r) (Cert.Spec.pos (kiN t) j) :=
  Finset.sum_congr rfl fun a _ => by rw [read0 V c X Wq hq t r a, read1 V c X Wk hk t j a]

include hq hk in

theorem sblk_off (t : Fin (cfgM (F := Ideal)).N) (h : kiN t ≠ qiN t) :
    (fun r j : Fin 512 => ∑ a : Fin 1024, mat (φ := .bf16) (iblk1 (F := Ideal) V c 0 t) r a * mat (φ := .bf16) (iblk1 (F := Ideal) V c 1 t) j a)
      = Cert.Spec.blockScore X Wq Wk (bOf t) (qiN t) (kiN t) := by
  rw [Cert.Spec.blockScore_off X Wq Wk (bOf t) (ki_lt_qi t h) (ki_le_qi t).2]
  funext r j
  exact scoreBlk V c X Wq Wk hq hk t r j

include hq hk in

theorem sblk_diag (t : Fin (cfgM (F := Ideal)).N) (h : kiN t = qiN t) :
    (fun r j : Fin 512 => if j ≤ r then ∑ a : Fin 1024, mat (φ := .bf16) (iblk1 (F := Ideal) V c 0 t) r a * mat (φ := .bf16) (iblk1 (F := Ideal) V c 1 t) j a else ⊥)
      = Cert.Spec.blockScore X Wq Wk (bOf t) (qiN t) (kiN t) := by
  have hs := scoreBlk V c X Wq Wk hq hk t
  rw [h] at hs ⊢
  rw [Cert.Spec.blockScore_diag X Wq Wk (bOf t) (ki_le_qi t).2]
  funext r j
  rw [hs r j]

include hq hk hv in

theorem st_step_A (t : Fin (cfgM (F := Ideal)).N) (h0 : kiN t = 0) (h1 : kiN t = qiN t) :
    st4 (outsAt1 (F := Ideal) V c t.val t.isLt) = Cert.Spec.step (Cert.Spec.blockScore X Wq Wk (bOf t) (qiN t) (kiN t)) (Cert.Spec.blockVal X Wv (bOf t) (kiN t)) Cert.Spec.St.init := by
  have c0 := (c0At_iff (F := Ideal) c t).mpr h0
  have c1 := (c1At_iff (F := Ideal) c t).mpr h1
  have e9 : Scalar.muli (w1_0 (F := Ideal) c (grid1.coords t) (tblLit 0)) 512#32 = BitVec.ofNat 32 (512 * qiN t) := by
    rw [w1_0_at]; exact rowOff_q t
  have e10 : Scalar.muli (w1_1 (F := Ideal) c (grid1.coords t) (tblLit 1)) 512#32 = BitVec.ofNat 32 (512 * qiN t) := by
    rw [w1_1_at]; exact rowOff_k t h1
  rw [outsAt1_A V c t c0 c1]
  dsimp only [st4]
  rw [show leaves1 (runA1 V c t c0 c1) = _ from leaves1_A _ _ _ _ _ _ _ _ _ _ _ _ _ _ _ _ _ _ _ _ _ _ _ _]
  exact ((stC _ _ _ _ _ _ _ _ (qiN t) (ki_le_qi t).2 e9 e10).trans (congrArg (Cert.Spec.step _ _) reset_st)).trans
    (congrArg₂ (fun s v => Cert.Spec.step s v Cert.Spec.St.init) (sblk_diag V c X Wq Wk hq hk t h1) (read2 V c X Wv hv t))

include hq hk hv in

theorem st_step_B (t : Fin (cfgM (F := Ideal)).N) (h0 : kiN t = 0) (h1 : kiN t ≠ qiN t) :
    st4 (outsAt1 (F := Ideal) V c t.val t.isLt) = Cert.Spec.step (Cert.Spec.blockScore X Wq Wk (bOf t) (qiN t) (kiN t)) (Cert.Spec.blockVal X Wv (bOf t) (kiN t)) Cert.Spec.St.init := by
  have c0 := (c0At_iff (F := Ideal) c t).mpr h0
  have c1 : ¬c1At (F := Ideal) c t := fun h => h1 ((c1At_iff (F := Ideal) c t).mp h)
  rw [outsAt1_B V c t c0 c1]
  dsimp only [st4]
  rw [show (leaves1 (runB1 V c t c0 c1)).2 = _ from leaves1_B _ _ _ _ _ _ _ _ _ _ _ _ _ _ _ _ _ _ _ _ _ _ _ _]
  exact ((stD _ _ _ _ _ _).trans (congrArg (Cert.Spec.step _ _) reset_st)).trans
    (congrArg₂ (fun s v => Cert.Spec.step s v Cert.Spec.St.init) (sblk_off V c X Wq Wk hq hk t h1) (read2 V c X Wv hv t))

include hq hk hv in

theorem st_step_C (t : Fin (cfgM (F := Ideal)).N) (h0 : kiN t ≠ 0) (h1 : kiN t = qiN t) :
    st4 (outsAt1 (F := Ideal) V c t.val t.isLt) = Cert.Spec.step (Cert.Spec.blockScore X Wq Wk (bOf t) (qiN t) (kiN t)) (Cert.Spec.blockVal X Wv (bOf t) (kiN t)) (stOf (prev1 (F := Ideal) V c t).1 (prev1 (F := Ideal) V c t).2.1 (prev1 (F := Ideal) V c t).2.2) := by
  have c0 : ¬c0At (F := Ideal) c t := fun h => h0 ((c0At_iff (F := Ideal) c t).mp h)
  have c1 := (c1At_iff (F := Ideal) c t).mpr h1
  have e9 : Scalar.muli (w1_0 (F := Ideal) c (grid1.coords t) (tblLit 0)) 512#32 = BitVec.ofNat 32 (512 * qiN t) := by
    rw [w1_0_at]; exact rowOff_q t
  have e10 : Scalar.muli (w1_1 (F := Ideal) c (grid1.coords t) (tblLit 1)) 512#32 = BitVec.ofNat 32 (512 * qiN t) := by
    rw [w1_1_at]; exact rowOff_k t h1
  rw [outsAt1_C V c t c0 c1]
  dsimp only [st4]
  rw [show leaves1 (runC1 V c t c0 c1 (prev1 V c t)) = _ from leaves1_C _ _ _ _ _ _ _ _ _ _ _ _ _ _ _ _ _ _ _ _ _ _ _ _ _ _ _]
  exact (stC _ _ _ _ _ _ _ _ (qiN t) (ki_le_qi t).2 e9 e10).trans
    (congrArg₂ (fun s v => Cert.Spec.step s v (stOf (prev1 (F := Ideal) V c t).1 (prev1 (F := Ideal) V c t).2.1 (prev1 (F := Ideal) V c t).2.2)) (sblk_diag V c X Wq Wk hq hk t h1) (read2 V c X Wv hv t))

include hq hk hv in

theorem st_step_D (t : Fin (cfgM (F := Ideal)).N) (h0 : kiN t ≠ 0) (h1 : kiN t ≠ qiN t) :
    st4 (outsAt1 (F := Ideal) V c t.val t.isLt) = Cert.Spec.step (Cert.Spec.blockScore X Wq Wk (bOf t) (qiN t) (kiN t)) (Cert.Spec.blockVal X Wv (bOf t) (kiN t)) (stOf (prev1 (F := Ideal) V c t).1 (prev1 (F := Ideal) V c t).2.1 (prev1 (F := Ideal) V c t).2.2) := by
  have c0 : ¬c0At (F := Ideal) c t := fun h => h0 ((c0At_iff (F := Ideal) c t).mp h)
  have c1 : ¬c1At (F := Ideal) c t := fun h => h1 ((c1At_iff (F := Ideal) c t).mp h)
  rw [outsAt1_D V c t c0 c1]
  dsimp only [st4]
  rw [show (leaves1 (runD1 V c t c0 c1 (prev1 V c t))).2 = _ from leaves1_D _ _ _ _ _ _ _ _ _ _ _ _ _ _ _ _ _ _ _ _ _ _ _ _ _ _ _]
  exact (stD _ _ _ _ _ _).trans
    (congrArg₂ (fun s v => Cert.Spec.step s v (stOf (prev1 (F := Ideal) V c t).1 (prev1 (F := Ideal) V c t).2.1 (prev1 (F := Ideal) V c t).2.2)) (sblk_off V c X Wq Wk hq hk t h1) (read2 V c X Wv hv t))

include hq hk hv in

-- one point, one step: over the initial state when `ki = 0`, else over what the point before left
theorem st_step (t : Fin (cfgM (F := Ideal)).N) :
    st4 (outsAt1 (F := Ideal) V c t.val t.isLt)
      = Cert.Spec.step (Cert.Spec.blockScore X Wq Wk (bOf t) (qiN t) (kiN t)) (Cert.Spec.blockVal X Wv (bOf t) (kiN t))
          (if kiN t = 0 then Cert.Spec.St.init else st4 (outsAt1 (F := Ideal) V c (t.val - 1) (Nat.lt_of_le_of_lt (Nat.sub_le _ _) t.isLt))) := by
  by_cases h0 : kiN t = 0
  · rw [if_pos h0]
    by_cases h1 : kiN t = qiN t
    · exact st_step_A V c X Wq Wk Wv hq hk hv t h0 h1
    · exact st_step_B V c X Wq Wk Wv hq hk hv t h0 h1
  · rw [if_neg h0]
    by_cases h1 : kiN t = qiN t
    · exact st_step_C V c X Wq Wk Wv hq hk hv t h0 h1
    · exact st_step_D V c X Wq Wk Wv hq hk hv t h0 h1

include hq hk hv in

theorem st_inv (t : Fin (cfgM (F := Ideal)).N) :
    st4 (outsAt1 (F := Ideal) V c t.val t.isLt) = Cert.Spec.stAt X Wq Wk Wv (bOf t) (qiN t) (kiN t) :=
  inv_of_step X Wq Wk Wv (fun n hn => st4 (outsAt1 (F := Ideal) V c n hn)) (st_step V c X Wq Wk Wv hq hk hv) t

include hq hk hv in

-- where a run closes (`ki = qi`) the stored block is the specification's result on the query block's rows
theorem out_eq (hF : Cert.Spec.Finite X Wq Wk Wv) (t : Fin (cfgM (F := Ideal)).N) (h1 : kiN t = qiN t) (r : Fin 512) (a : Fin 1024) :
    (outsAt1 (F := Ideal) V c t.val t.isLt).1 (ix3 (0 : Fin 1) r a) = Cert.Spec.G X Wq Wk Wv (bOf t) (Cert.Spec.pos (qiN t) r) a := by
  have h8 : qiN t < 8 := (ki_le_qi t).2
  have hst := st_inv V c X Wq Wk Wv hq hk hv t
  have c1 := (c1At_iff (F := Ideal) c t).mpr h1
  have hm : mat (φ := .f32) (outsAt1 (F := Ideal) V c t.val t.isLt).1 = fun r a => Cert.Spec.round4 (Ideal.div
      ((st4 (outsAt1 (F := Ideal) V c t.val t.isLt)).acc r a) ((st4 (outsAt1 (F := Ideal) V c t.val t.isLt)).l r)) := by
    by_cases h0 : kiN t = 0
    · exact out_A V c t ((c0At_iff (F := Ideal) c t).mpr h0) c1
    · exact out_C V c t (fun h => h0 ((c0At_iff (F := Ideal) c t).mp h)) c1
  refine (congrFun (congrFun hm r) a).trans ?_
  rw [hst, h1]
  exact Cert.Spec.blockOut_eq_G hF (bOf t) (qiN t) h8 r a

end Reads

end AtPoint

theorem flushed3_eq (V : (c : Dev nD) → (b : Ref sig .tc) → Buf (Elt Ideal) ((c : Thread nD τ).loc b)) (c : Dev nD)
    (Gf : Fin 4 → Fin 4096 → Fin 1024 → EReal) (t : Fin (cfgM (F := Ideal)).N)
    (hout : ∀ (r : Fin 512) (a : Fin 1024), (outsAt1 (F := Ideal) V c t.val t.isLt).1 (ix3 (0 : Fin 1) r a) = Gf (bOf t) (Cert.Spec.pos (qiN t) r) a) :
    (dat1 (F := Ideal) V c).flushed 3 t = (((cfgM (F := Ideal)).win 3).blk t).view.read (Elt Ideal) (fun i : S4x4096x1024.Idx => Gf (i 0) (i 1) (i 2)) := by
  show ((cfgM (F := Ideal)).win 3).cut (grid1.coords t) ((dat1 (F := Ideal) V c).after 3 t) = _
  rw [after1_3]
  funext y
  have hy : y = ix3 (0 : Fin 1) (y 1) (y 2) := by
    funext d; match d with
    | ⟨0, _⟩ => exact Subsingleton.elim (α := Fin 1) _ _
    | ⟨1, _⟩ => rfl
    | ⟨2, _⟩ => rfl
  rw [hy]
  show (outsAt1 (F := Ideal) V c t.val t.isLt).1 (ix3 (0 : Fin 1) (y 1) (y 2))
    = (fun i : S4x4096x1024.Idx => Gf (i 0) (i 1) (i 2)) ((((cfgM (F := Ideal)).win 3).blk t).view.emb (ix3 (0 : Fin 1) (y 1) (y 2)))
  rw [emb3 (F := Ideal) t (y 1) (y 2)]
  exact hout (y 1) (y 2)

-- with the query array at the scaled query projection and the key and value arrays at theirs, the output array after the region is the specification's `G`
theorem arr1_3 (V : (c : Dev nD) → (b : Ref sig .tc) → Buf (Elt Ideal) ((c : Thread nD τ).loc b)) (c : Dev nD)
    (X : Cert.Spec.X3) (Wq Wk Wv : Cert.Spec.W2) (hF : Cert.Spec.Finite X Wq Wk Wv)
    (hq : ∀ (b : Fin 4) (t : Fin 4096) (a : Fin 1024), (V c main_v6 : S4x4096x1024.Idx → EReal) (ix3 b t a) = Cert.Spec.proj X Wq b t a * ((1 / 32 : ℝ) : EReal))
    (hk : ∀ (b : Fin 4) (t : Fin 4096) (a : Fin 1024), (V c main_v7 : S4x4096x1024.Idx → EReal) (ix3 b t a) = Cert.Spec.proj X Wk b t a)
    (hv : ∀ (b : Fin 4) (t : Fin 4096) (a : Fin 1024), (V c main_v8 : S4x4096x1024.Idx → EReal) (ix3 b t a) = Cert.Spec.proj X Wv b t a) :
    (dat1 (F := Ideal) V c).arrAt 3 (cfgM (F := Ideal)).N = fun i => Cert.Spec.G X Wq Wk Wv (i 0) (i 1) (i 2) :=
  (dat1 (F := Ideal) V c).arrAt_eq_of_cover 3 (fun i : S4x4096x1024.Idx => Cert.Spec.G X Wq Wk Wv (i 0) (i 1) (i 2))
    (fun t hf => flushed3_eq V c (Cert.Spec.G X Wq Wk Wv) t
      (out_eq V c X Wq Wk Wv hq hk hv hF t ((flush3 t).mp hf)))
    (fun i => cover3 (F := Ideal) i)

end Cert.KernelIdeal.Hand

end
-- ==== Proof.R0Value.lean ====
import proofs.«407511_j23811298689314_3_alg».proof.Proof.R0
import Idealize.ShloMosaic.Lib.Pipeline.Value
import Idealize.ShloMosaic.Lib.ValueIdx
import Idealize.ShloMosaic.Lib.ValueLayout
import Idealize.ShloMosaic.PureOps.Ideal.Laws

-- the three arrays the projection launch leaves: x·Wqᵀ scaled by 1/32, x·Wkᵀ, x·Wvᵀ, each block read where its rectangle says and the blocks covering the arrays

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

theorem lhs_mm_0 (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem lhs_mm_1 (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
theorem rhs_mm_0 (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q
theorem rhs_mm_1 (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

theorem pay1_apply (x0 : Vec Ideal S512x1024 .bf16) (x1 : Vec Ideal S1024x3072 .bf16) (p : Fin 512) (q : Fin 3072) :
    k0_pay1 x0 x1 (ix2 p q) = ∑ e : Fin 1024, x0 (ix2 p e) * x1 (ix2 e q) := by
  unfold k0_pay1
  simp only [shapeCast_self, matmul]
  rw [Ideal.matmul_constant_zero_apply, ← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 p q) ((contrEquiv1 dot_S512x1024_S1024x3072_S512x3072_1_0_0_1_n_n 1024 rfl rfl).symm k) = ix2 p k := funext fun a => Fin.ext (by
    match a with
    | ⟨0, _⟩ => exact lhs_mm_0 _ _
    | ⟨1, _⟩ => exact (lhs_mm_1 _ _).trans hk)
  have er : dot_S512x1024_S1024x3072_S512x3072_1_0_0_1_n_n.rhsIdx (ix2 p q) ((contrEquiv1 dot_S512x1024_S1024x3072_S512x3072_1_0_0_1_n_n 1024 rfl rfl).symm k) = ix2 k q := funext fun a => Fin.ext (by
    match a with
    | ⟨0, _⟩ => exact (rhs_mm_0 _ _).trans hk
    | ⟨1, _⟩ => exact rhs_mm_1 _ _)
  rw [el, er]

theorem scale_eq : Ideal.ofBits .f32 0x3D000000#32 = ((1 / 32 : ℝ) : EReal) := by
  simp [Ideal.ofBits, Ideal.ieee, -EReal.coe_mul]; norm_num

theorem pay2_apply (x0 : Vec Ideal S512x1024 .bf16) (x1 : Vec Ideal S1024x3072 .bf16) (p : Fin 512) (a : Fin 1024) :
    k0_pay2 x0 x1 (ix2 p a) = (∑ e : Fin 1024, x0 (ix2 p e) * x1 (ix2 e (⟨a.val, by omega⟩ : Fin 3072))) * ((1 / 32 : ℝ) : EReal) := by
  unfold k0_pay2
  rw [truncf_apply, mulf_apply, broadcast_apply]
  rw [slice2_axis1_apply 0 (k0_pay1 x0 x1) slices_S512x3072_o0_0_S512x1024 p a (⟨a.val, by omega⟩ : Fin 3072) (by simp), pay1_apply]
  exact congrArg _ scale_eq

theorem pay3_apply (x0 : Vec Ideal S512x1024 .bf16) (x1 : Vec Ideal S1024x3072 .bf16) (p : Fin 512) (a : Fin 1024) :
    k0_pay3 x0 x1 (ix2 p a) = ∑ e : Fin 1024, x0 (ix2 p e) * x1 (ix2 e (⟨1024 + a.val, by omega⟩ : Fin 3072)) := by
  unfold k0_pay3
  rw [truncf_apply]
  rw [slice2_axis1_apply 1024 (k0_pay1 x0 x1) slices_S512x3072_o0_1024_S512x1024 p a (⟨1024 + a.val, by omega⟩ : Fin 3072) rfl, pay1_apply]

theorem pay4_apply (x0 : Vec Ideal S512x1024 .bf16) (x1 : Vec Ideal S1024x3072 .bf16) (p : Fin 512) (a : Fin 1024) :
    k0_pay4 x0 x1 (ix2 p a) = ∑ e : Fin 1024, x0 (ix2 p e) * x1 (ix2 e (⟨2048 + a.val, by omega⟩ : Fin 3072)) := by
  unfold k0_pay4
  rw [truncf_apply]
  rw [slice2_axis1_apply 2048 (k0_pay1 x0 x1) slices_S512x3072_o0_2048_S512x1024 p a (⟨2048 + a.val, by omega⟩ : Fin 3072) rfl, pay1_apply]

def projQ (X : S16384x1024.Idx → EReal) (W : S1024x3072.Idx → EReal) : S16384x1024.Idx → EReal := fun i =>
  have h0 : (i 0).val < 16384 := idx2_lt0 i
  have h1 : (i 1).val < 1024 := idx2_lt1 i
  (∑ e : Fin 1024, X (ix2 (⟨(i 0).val, h0⟩ : Fin 16384) e) * W (ix2 e (⟨(i 1).val, by omega⟩ : Fin 3072))) * ((1 / 32 : ℝ) : EReal)

theorem projQ_apply (X : S16384x1024.Idx → EReal) (W : S1024x3072.Idx → EReal) (r : Fin 16384) (a : Fin 1024) :
    projQ X W (ix2 r a) = (∑ e : Fin 1024, X (ix2 r e) * W (ix2 e (⟨a.val, by omega⟩ : Fin 3072))) * ((1 / 32 : ℝ) : EReal) := rfl

def projK (X : S16384x1024.Idx → EReal) (W : S1024x3072.Idx → EReal) : S16384x1024.Idx → EReal := fun i =>
  have h0 : (i 0).val < 16384 := idx2_lt0 i
  have h1 : (i 1).val < 1024 := idx2_lt1 i
  ∑ e : Fin 1024, X (ix2 (⟨(i 0).val, h0⟩ : Fin 16384) e) * W (ix2 e (⟨1024 + (i 1).val, by omega⟩ : Fin 3072))

theorem projK_apply (X : S16384x1024.Idx → EReal) (W : S1024x3072.Idx → EReal) (r : Fin 16384) (a : Fin 1024) :
    projK X W (ix2 r a) = ∑ e : Fin 1024, X (ix2 r e) * W (ix2 e (⟨1024 + a.val, by omega⟩ : Fin 3072)) := rfl

def projV (X : S16384x1024.Idx → EReal) (W : S1024x3072.Idx → EReal) : S16384x1024.Idx → EReal := fun i =>
  have h0 : (i 0).val < 16384 := idx2_lt0 i
  have h1 : (i 1).val < 1024 := idx2_lt1 i
  ∑ e : Fin 1024, X (ix2 (⟨(i 0).val, h0⟩ : Fin 16384) e) * W (ix2 e (⟨2048 + (i 1).val, by omega⟩ : Fin 3072))

theorem projV_apply (X : S16384x1024.Idx → EReal) (W : S1024x3072.Idx → EReal) (r : Fin 16384) (a : Fin 1024) :
    projV X W (ix2 r a) = ∑ e : Fin 1024, X (ix2 r e) * W (ix2 e (⟨2048 + a.val, by omega⟩ : Fin 3072)) := rfl

variable (V : (c : Dev nD) → (b : Ref sig .tc) → Buf (Elt Ideal) ((c : Thread nD τ).loc b))

theorem zeros2 : (![0, 0] : Fin 2 → Nat) = fun _ => 0 := funext fun a => by fin_cases a <;> rfl

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ t.val < 32 :=
  (by decide +kernel : ∀ t : Fin grid0.N, _)

theorem xblk_apply (c : Dev nD) (t : Fin cfg0.N) (p : Fin 512) (e : Fin 1024) (h : 512 * t.val + p.val < 16384) :
    (iblk0 V c 0 t : S512x1024.Idx → EReal) (ix2 p e) = (V c main_v1 : S16384x1024.Idx → EReal) (ix2 (⟨512 * t.val + p.val, h⟩ : Fin 16384) e) := by
  obtain ⟨e00, e01, -⟩ := idx_facts0 t
  show (V c main_v1 : S16384x1024.Idx → EReal) (((cfg0.win 0).blk t).view.emb (ix2 p e)) = _
  refine congrArg _ (funext fun a => Fin.ext ?_)
  match a with
  | ⟨0, _⟩ => show win0_0.index t (0 : Fin 2) * 512 + 1 * p.val = 512 * t.val + p.val; omega
  | ⟨1, _⟩ => show win0_0.index t (1 : Fin 2) * 1024 + 1 * e.val = e.val; omega

theorem wblk_apply (c : Dev nD) (t : Fin cfg0.N) (e : Fin 1024) (q : Fin 3072) :
    (iblk0 V c 1 t : S1024x3072.Idx → EReal) (ix2 e q) = (V c main_v4 : S1024x3072.Idx → EReal) (ix2 e q) := by
  obtain ⟨-, -, e10, e11, -⟩ := idx_facts0 t
  show (V c main_v4 : S1024x3072.Idx → EReal) (((cfg0.win 1).blk t).view.emb (ix2 e q)) = _
  refine congrArg _ (funext fun a => Fin.ext ?_)
  match a with
  | ⟨0, _⟩ => show win0_1.index t (0 : Fin 2) * 1024 + 1 * e.val = e.val; omega
  | ⟨1, _⟩ => show win0_1.index t (1 : Fin 2) * 3072 + 1 * q.val = q.val; omega

theorem payQ_blk (x0 : Vec Ideal S512x1024 .bf16) (x1 : Vec Ideal S1024x3072 .bf16)
    (X : S16384x1024.Idx → EReal) (W : S1024x3072.Idx → EReal) (r : ℕ) (hr : r < 32)
    (h0 : ∀ (p : Fin 512) (e : Fin 1024), x0 (ix2 p e) = X (ix2 (⟨512 * r + p.val, by omega⟩ : Fin 16384) e))
    (h1 : ∀ (e : Fin 1024) (q : Fin 3072), x1 (ix2 e q) = W (ix2 e q)) (p : Fin 512) (a : Fin 1024) :
    k0_pay2 x0 x1 (ix2 p a) = projQ X W (ix2 (⟨512 * r + p.val, by omega⟩ : Fin 16384) a) := by
  rw [pay2_apply, projQ_apply]
  simp only [h0, h1]

theorem flushedQ_eq (c : Dev nD) (t : Fin cfg0.N) :
    (dat0 V c).flushed 2 t = ((cfg0.win 2).blk t).view.read (Elt Ideal) (projQ (V c main_v1) (V c main_v4)) := by
  show (cfg0.win 2).cut (grid0.coords t) ((dat0 V c).after 2 t) = _
  rw [after0_2]
  unfold out0_2
  rw [View.canon_unit_zero zeros2]
  simp only [View.ld_unit_zero (S := S512x1024) zeros2, View.ld_unit_zero (S := S1024x3072) zeros2]
  obtain ⟨-, -, -, -, e20, e21, e30, e31, e40, e41, ht⟩ := idx_facts0 t
  funext j
  obtain ⟨p, a, rfl⟩ : ∃ (p : Fin 512) (a : Fin 1024), j = ix2 p a := ⟨j 0, j 1, eq_ix2 j⟩
  show k0_pay2 (iblk0 V c 0 t) (iblk0 V c 1 t) (ix2 p a) = projQ (V c main_v1) (V c main_v4) (((cfg0.win 2).blk t).view.emb (ix2 p a))
  refine (payQ_blk (iblk0 V c 0 t) (iblk0 V c 1 t) (V c main_v1) (V c main_v4) t.val ht
    (fun p e => xblk_apply V c t p e _) (fun e q => wblk_apply V c t e q) p a).trans ?_
  refine congrArg _ (funext fun b => Fin.ext ?_)
  match b with
  | ⟨0, _⟩ => show 512 * t.val + p.val = win0_2.index t (0 : Fin 2) * 512 + 1 * p.val; omega
  | ⟨1, _⟩ => show a.val = win0_2.index t (1 : Fin 2) * 1024 + 1 * a.val; omega

theorem mem_blkQ (t : Fin cfg0.N) (i : S16384x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v5_0).slice (win0_2.rect t)).set ↔ _
  rw [View.set_slice_whole, Rect.mem_set_unit]
  exact Iff.rfl

theorem coverQ (i : S16384x1024.Idx) :
    ∃ t : Fin cfg0.N, (cfg0.win 2).flush t = true ∧ i ∈ ((cfg0.win 2).blk t).view.set := by
  have hi0 : (i 0).val < 16384 := idx2_lt0 i
  have hi1 : (i 1).val < 1024 := idx2_lt1 i
  obtain ⟨t, htv⟩ : ∃ t : Fin cfg0.N, t.val = (i 0).val / 512 :=
    ⟨⟨(i 0).val / 512, by show (i 0).val / 512 < grid0.N; rw [N_0]; omega⟩, rfl⟩
  obtain ⟨-, -, -, -, e20, e21, e30, e31, e40, e41, ht⟩ := idx_facts0 t
  refine ⟨t, flush0_2 t, ?_⟩
  rw [mem_blkQ]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

theorem arr0_2 (c : Dev nD) : (dat0 (F := Ideal) V c).arrAt 2 cfg0.N = projQ (V c main_v1) (V c main_v4) :=
  (dat0 V c).arrAt_eq_of_cover 2 _ (fun t _ => flushedQ_eq V c t) coverQ

theorem payK_blk (x0 : Vec Ideal S512x1024 .bf16) (x1 : Vec Ideal S1024x3072 .bf16)
    (X : S16384x1024.Idx → EReal) (W : S1024x3072.Idx → EReal) (r : ℕ) (hr : r < 32)
    (h0 : ∀ (p : Fin 512) (e : Fin 1024), x0 (ix2 p e) = X (ix2 (⟨512 * r + p.val, by omega⟩ : Fin 16384) e))
    (h1 : ∀ (e : Fin 1024) (q : Fin 3072), x1 (ix2 e q) = W (ix2 e q)) (p : Fin 512) (a : Fin 1024) :
    k0_pay3 x0 x1 (ix2 p a) = projK X W (ix2 (⟨512 * r + p.val, by omega⟩ : Fin 16384) a) := by
  rw [pay3_apply, projK_apply]
  simp only [h0, h1]

theorem flushedK_eq (c : Dev nD) (t : Fin cfg0.N) :
    (dat0 V c).flushed 3 t = ((cfg0.win 3).blk t).view.read (Elt Ideal) (projK (V c main_v1) (V c main_v4)) := by
  show (cfg0.win 3).cut (grid0.coords t) ((dat0 V c).after 3 t) = _
  rw [after0_3]
  unfold out0_3
  rw [View.canon_unit_zero zeros2]
  simp only [View.ld_unit_zero (S := S512x1024) zeros2, View.ld_unit_zero (S := S1024x3072) zeros2]
  obtain ⟨-, -, -, -, e20, e21, e30, e31, e40, e41, ht⟩ := idx_facts0 t
  funext j
  obtain ⟨p, a, rfl⟩ : ∃ (p : Fin 512) (a : Fin 1024), j = ix2 p a := ⟨j 0, j 1, eq_ix2 j⟩
  show k0_pay3 (iblk0 V c 0 t) (iblk0 V c 1 t) (ix2 p a) = projK (V c main_v1) (V c main_v4) (((cfg0.win 3).blk t).view.emb (ix2 p a))
  refine (payK_blk (iblk0 V c 0 t) (iblk0 V c 1 t) (V c main_v1) (V c main_v4) t.val ht
    (fun p e => xblk_apply V c t p e _) (fun e q => wblk_apply V c t e q) p a).trans ?_
  refine congrArg _ (funext fun b => Fin.ext ?_)
  match b with
  | ⟨0, _⟩ => show 512 * t.val + p.val = win0_3.index t (0 : Fin 2) * 512 + 1 * p.val; omega
  | ⟨1, _⟩ => show a.val = win0_3.index t (1 : Fin 2) * 1024 + 1 * a.val; omega

theorem mem_blkK (t : Fin cfg0.N) (i : S16384x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v5_1).slice (win0_3.rect t)).set ↔ _
  rw [View.set_slice_whole, Rect.mem_set_unit]
  exact Iff.rfl

theorem coverK (i : S16384x1024.Idx) :
    ∃ t : Fin cfg0.N, (cfg0.win 3).flush t = true ∧ i ∈ ((cfg0.win 3).blk t).view.set := by
  have hi0 : (i 0).val < 16384 := idx2_lt0 i
  have hi1 : (i 1).val < 1024 := idx2_lt1 i
  obtain ⟨t, htv⟩ : ∃ t : Fin cfg0.N, t.val = (i 0).val / 512 :=
    ⟨⟨(i 0).val / 512, by show (i 0).val / 512 < grid0.N; rw [N_0]; omega⟩, rfl⟩
  obtain ⟨-, -, -, -, e20, e21, e30, e31, e40, e41, ht⟩ := idx_facts0 t
  refine ⟨t, flush0_3 t, ?_⟩
  rw [mem_blkK]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

theorem arr0_3 (c : Dev nD) : (dat0 (F := Ideal) V c).arrAt 3 cfg0.N = projK (V c main_v1) (V c main_v4) :=
  (dat0 V c).arrAt_eq_of_cover 3 _ (fun t _ => flushedK_eq V c t) coverK

theorem payV_blk (x0 : Vec Ideal S512x1024 .bf16) (x1 : Vec Ideal S1024x3072 .bf16)
    (X : S16384x1024.Idx → EReal) (W : S1024x3072.Idx → EReal) (r : ℕ) (hr : r < 32)
    (h0 : ∀ (p : Fin 512) (e : Fin 1024), x0 (ix2 p e) = X (ix2 (⟨512 * r + p.val, by omega⟩ : Fin 16384) e))
    (h1 : ∀ (e : Fin 1024) (q : Fin 3072), x1 (ix2 e q) = W (ix2 e q)) (p : Fin 512) (a : Fin 1024) :
    k0_pay4 x0 x1 (ix2 p a) = projV X W (ix2 (⟨512 * r + p.val, by omega⟩ : Fin 16384) a) := by
  rw [pay4_apply, projV_apply]
  simp only [h0, h1]

theorem flushedV_eq (c : Dev nD) (t : Fin cfg0.N) :
    (dat0 V c).flushed 4 t = ((cfg0.win 4).blk t).view.read (Elt Ideal) (projV (V c main_v1) (V c main_v4)) := by
  show (cfg0.win 4).cut (grid0.coords t) ((dat0 V c).after 4 t) = _
  rw [after0_4]
  unfold out0_4
  rw [View.canon_unit_zero zeros2]
  simp only [View.ld_unit_zero (S := S512x1024) zeros2, View.ld_unit_zero (S := S1024x3072) zeros2]
  obtain ⟨-, -, -, -, e20, e21, e30, e31, e40, e41, ht⟩ := idx_facts0 t
  funext j
  obtain ⟨p, a, rfl⟩ : ∃ (p : Fin 512) (a : Fin 1024), j = ix2 p a := ⟨j 0, j 1, eq_ix2 j⟩
  show k0_pay4 (iblk0 V c 0 t) (iblk0 V c 1 t) (ix2 p a) = projV (V c main_v1) (V c main_v4) (((cfg0.win 4).blk t).view.emb (ix2 p a))
  refine (payV_blk (iblk0 V c 0 t) (iblk0 V c 1 t) (V c main_v1) (V c main_v4) t.val ht
    (fun p e => xblk_apply V c t p e _) (fun e q => wblk_apply V c t e q) p a).trans ?_
  refine congrArg _ (funext fun b => Fin.ext ?_)
  match b with
  | ⟨0, _⟩ => show 512 * t.val + p.val = win0_4.index t (0 : Fin 2) * 512 + 1 * p.val; omega
  | ⟨1, _⟩ => show a.val = win0_4.index t (1 : Fin 2) * 1024 + 1 * a.val; omega

theorem mem_blkV (t : Fin cfg0.N) (i : S16384x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v5_2).slice (win0_4.rect t)).set ↔ _
  rw [View.set_slice_whole, Rect.mem_set_unit]
  exact Iff.rfl

theorem coverV (i : S16384x1024.Idx) :
    ∃ t : Fin cfg0.N, (cfg0.win 4).flush t = true ∧ i ∈ ((cfg0.win 4).blk t).view.set := by
  have hi0 : (i 0).val < 16384 := idx2_lt0 i
  have hi1 : (i 1).val < 1024 := idx2_lt1 i
  obtain ⟨t, htv⟩ : ∃ t : Fin cfg0.N, t.val = (i 0).val / 512 :=
    ⟨⟨(i 0).val / 512, by show (i 0).val / 512 < grid0.N; rw [N_0]; omega⟩, rfl⟩
  obtain ⟨-, -, -, -, e20, e21, e30, e31, e40, e41, ht⟩ := idx_facts0 t
  refine ⟨t, flush0_4 t, ?_⟩
  rw [mem_blkV]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

theorem arr0_4 (c : Dev nD) : (dat0 (F := Ideal) V c).arrAt 4 cfg0.N = projV (V c main_v1) (V c main_v4) :=
  (dat0 V c).arrAt_eq_of_cover 4 _ (fun t _ => flushedV_eq V c t) coverV

end Cert.KernelIdeal.Hand

end
-- ==== Proof.HostGlue.lean ====
import proofs.«407511_j23811298689314_3_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

-- what the host operations around the two launches compute: the reshaped input, the three transposed weights side by side, the three projections reshaped back, the arguments untouched

noncomputable section

namespace Cert.KernelIdeal.Hand

open Cert.KernelIdeal Cert.KernelIdeal.Gen Idealize.ShloMosaic Idealize.ShloMosaic.TcCoe Idealize.SL.Sem
open Idealize.ShloMosaic.StableHlo
open Idealize.ShloMosaic.ValueIdx

variable {F : FTy → Type} [FloatOps F] [Named F]

theorem host0_v1 (W : Valuation τ sig (Elt Ideal)) (b : Fin 4) (t : Fin 4096) (e : Fin 1024) :
    (StableHlo.after hostOps0 W (Proc.devRef .tc main_v1) : S16384x1024.Idx → EReal) (ix2 (⟨4096 * b.val + t.val, by omega⟩ : Fin 16384) e)
      = (W (Proc.devRef .tc main_arg0) : S4x4096x1024.Idx → EReal) (ix3 b t e) := by
  have e1 : (StableHlo.after hostOps0 W (Proc.devRef .tc main_v1) : S16384x1024.Idx → EReal)
      = shapeCast S16384x1024 (truncf (F := Ideal) (s := S4x4096x1024) (φ := .f32) .bf16 (W (Proc.devRef .tc main_arg0)) bitsLt_bf16_f32) shapeCasts_S4x4096x1024_S16384x1024 := by
    after_results; rfl
  rw [e1, shapeCast_apply _ shapeCasts_S4x4096x1024_S16384x1024 (ix2 (⟨4096 * b.val + t.val, by omega⟩ : Fin 16384) e) (ix3 b t e) (by
    rw [Shape.rowMajor_val_three, Shape.rowMajor_val_two]
    show (b.val * 4096 + t.val) * 1024 + e.val = (4096 * b.val + t.val) * 1024 + e.val
    omega)]
  rfl

theorem host0_v4_eq (W : Valuation τ sig (Elt Ideal)) :
    (StableHlo.after hostOps0 W (Proc.devRef .tc main_v4) : S1024x3072.Idx → EReal)
      = truncf (F := Ideal) (s := S1024x3072) (φ := .f32) .bf16 (transpose S1024x3072 [1, 0] (concatenate S3072x1024 0
          [⟨S1024x1024, (W (Proc.devRef .tc main_arg1) : S1024x1024.Idx → EReal)⟩, ⟨S1024x1024, (W (Proc.devRef .tc main_arg2) : S1024x1024.Idx → EReal)⟩,
           ⟨S1024x1024, (W (Proc.devRef .tc main_arg3) : S1024x1024.Idx → EReal)⟩]
          concatenates_S1024x1024_S1024x1024_S1024x1024_S3072x1024_d0) transposes_S3072x1024_S1024x3072_1_0) bitsLt_bf16_f32 := by
  after_results; rfl

theorem host0_v4_piece (W : Valuation τ sig (Elt Ideal)) (k : ℕ) (hk : k < 3) (x₁ : S1024x1024.Idx → EReal) (pre : ℕ)
    (hxk : ([⟨S1024x1024, (W (Proc.devRef .tc main_arg1) : S1024x1024.Idx → EReal)⟩, ⟨S1024x1024, (W (Proc.devRef .tc main_arg2) : S1024x1024.Idx → EReal)⟩,
           ⟨S1024x1024, (W (Proc.devRef .tc main_arg3) : S1024x1024.Idx → EReal)⟩] : List ((s : Shape) × (s.Idx → EReal)))[k]'hk = ⟨S1024x1024, x₁⟩)
    (hpre : pre = 1024 * k)
    (e : Fin 1024) (a : Fin 1024) (col : Fin 3072) (hcol : col.val = pre + a.val) :
    (StableHlo.after hostOps0 W (Proc.devRef .tc main_v4) : S1024x3072.Idx → EReal) (ix2 e col) = x₁ (ix2 a e) := by
  rw [host0_v4_eq, truncf_apply, transpose_ix2_apply _ transposes_S3072x1024_S1024x3072_1_0 e col]
  refine concatenate_apply_piece (0 : Fin S3072x1024.rank) ([⟨S1024x1024, (W (Proc.devRef .tc main_arg1) : S1024x1024.Idx → EReal)⟩, ⟨S1024x1024, (W (Proc.devRef .tc main_arg2) : S1024x1024.Idx → EReal)⟩, ⟨S1024x1024, (W (Proc.devRef .tc main_arg3) : S1024x1024.Idx → EReal)⟩] : List ((s : Shape) × (s.Idx → EReal)))
    concatenates_S1024x1024_S1024x1024_S1024x1024_S3072x1024_d0 (ix2 col e)
    k hk S1024x1024 x₁ hxk rfl pre ?_ (ix2 a e) ?_ ?_
  · subst hpre
    match k, hk with
    | 0, _ => rfl
    | 1, _ => rfl
    | 2, _ => rfl
  · intro b hb
    match b with
    | ⟨0, _⟩ => exact absurd rfl hb
    | ⟨1, _⟩ => rfl
  · show pre + a.val = col.val
    omega

theorem host0_v4_q (W : Valuation τ sig (Elt Ideal)) (e : Fin 1024) (a : Fin 1024) :
    (StableHlo.after hostOps0 W (Proc.devRef .tc main_v4) : S1024x3072.Idx → EReal) (ix2 e (⟨a.val, by omega⟩ : Fin 3072))
      = (W (Proc.devRef .tc main_arg1) : S1024x1024.Idx → EReal) (ix2 a e) :=
  host0_v4_piece W 0 (by decide) _ 0 rfl rfl e a _ (by simp)

theorem host0_v4_k (W : Valuation τ sig (Elt Ideal)) (e : Fin 1024) (a : Fin 1024) :
    (StableHlo.after hostOps0 W (Proc.devRef .tc main_v4) : S1024x3072.Idx → EReal) (ix2 e (⟨1024 + a.val, by omega⟩ : Fin 3072))
      = (W (Proc.devRef .tc main_arg2) : S1024x1024.Idx → EReal) (ix2 a e) :=
  host0_v4_piece W 1 (by decide) _ 1024 rfl rfl e a _ rfl

theorem host0_v4_v (W : Valuation τ sig (Elt Ideal)) (e : Fin 1024) (a : Fin 1024) :
    (StableHlo.after hostOps0 W (Proc.devRef .tc main_v4) : S1024x3072.Idx → EReal) (ix2 e (⟨2048 + a.val, by omega⟩ : Fin 3072))
      = (W (Proc.devRef .tc main_arg3) : S1024x1024.Idx → EReal) (ix2 a e) :=
  host0_v4_piece W 2 (by decide) _ 2048 rfl rfl e a _ rfl

theorem host0_c (W : Valuation τ sig (Elt F)) :
    StableHlo.after hostOps0 W (Proc.devRef .tc main_c) = fun i => lit0 (S2x18.rowMajor i) := by
  after_results; rfl

theorem host0_c_0 (W : Valuation τ sig (Elt F)) :
    StableHlo.after hostOps0 W (Proc.devRef .tc main_c_0) = fun i => lit1 (S2x18.rowMajor i) := by
  after_results; rfl

theorem host0_arg0 (W : Valuation τ sig (Elt F)) : StableHlo.after hostOps0 W (Proc.devRef .tc main_arg0) = W (Proc.devRef .tc main_arg0) := by
  after_results

theorem host0_arg1 (W : Valuation τ sig (Elt F)) : StableHlo.after hostOps0 W (Proc.devRef .tc main_arg1) = W (Proc.devRef .tc main_arg1) := by
  after_results

theorem host0_arg2 (W : Valuation τ sig (Elt F)) : StableHlo.after hostOps0 W (Proc.devRef .tc main_arg2) = W (Proc.devRef .tc main_arg2) := by
  after_results

theorem host0_arg3 (W : Valuation τ sig (Elt F)) : StableHlo.after hostOps0 W (Proc.devRef .tc main_arg3) = W (Proc.devRef .tc main_arg3) := by
  after_results

theorem host1_v6 (W : Valuation τ sig (Elt F)) (b : Fin 4) (t : Fin 4096) (a : Fin 1024) :
    (StableHlo.after hostOps1 W (Proc.devRef .tc main_v6) : S4x4096x1024.Idx → Elt F .bf16) (ix3 b t a)
      = (W (Proc.devRef .tc main_v5_0) : S16384x1024.Idx → Elt F .bf16) (ix2 (⟨4096 * b.val + t.val, by omega⟩ : Fin 16384) a) := by
  have e1 : (StableHlo.after hostOps1 W (Proc.devRef .tc main_v6) : S4x4096x1024.Idx → Elt F .bf16)
      = shapeCast S4x4096x1024 (W (Proc.devRef .tc main_v5_0) : S16384x1024.Idx → Elt F .bf16) shapeCasts_S16384x1024_S4x4096x1024 := by
    after_results; rfl
  rw [e1, shapeCast_apply _ shapeCasts_S16384x1024_S4x4096x1024 (ix3 b t a) (ix2 (⟨4096 * b.val + t.val, by omega⟩ : Fin 16384) a) (by
    rw [Shape.rowMajor_val_three, Shape.rowMajor_val_two]
    show (4096 * b.val + t.val) * 1024 + a.val = (b.val * 4096 + t.val) * 1024 + a.val
    omega)]

theorem host1_v7 (W : Valuation τ sig (Elt F)) (b : Fin 4) (t : Fin 4096) (a : Fin 1024) :
    (StableHlo.after hostOps1 W (Proc.devRef .tc main_v7) : S4x4096x1024.Idx → Elt F .bf16) (ix3 b t a)
      = (W (Proc.devRef .tc main_v5_1) : S16384x1024.Idx → Elt F .bf16) (ix2 (⟨4096 * b.val + t.val, by omega⟩ : Fin 16384) a) := by
  have e1 : (StableHlo.after hostOps1 W (Proc.devRef .tc main_v7) : S4x4096x1024.Idx → Elt F .bf16)
      = shapeCast S4x4096x1024 (W (Proc.devRef .tc main_v5_1) : S16384x1024.Idx → Elt F .bf16) shapeCasts_S16384x1024_S4x4096x1024 := by
    after_results; rfl
  rw [e1, shapeCast_apply _ shapeCasts_S16384x1024_S4x4096x1024 (ix3 b t a) (ix2 (⟨4096 * b.val + t.val, by omega⟩ : Fin 16384) a) (by
    rw [Shape.rowMajor_val_three, Shape.rowMajor_val_two]
    show (4096 * b.val + t.val) * 1024 + a.val = (b.val * 4096 + t.val) * 1024 + a.val
    omega)]

theorem host1_v8 (W : Valuation τ sig (Elt F)) (b : Fin 4) (t : Fin 4096) (a : Fin 1024) :
    (StableHlo.after hostOps1 W (Proc.devRef .tc main_v8) : S4x4096x1024.Idx → Elt F .bf16) (ix3 b t a)
      = (W (Proc.devRef .tc main_v5_2) : S16384x1024.Idx → Elt F .bf16) (ix2 (⟨4096 * b.val + t.val, by omega⟩ : Fin 16384) a) := by
  have e1 : (StableHlo.after hostOps1 W (Proc.devRef .tc main_v8) : S4x4096x1024.Idx → Elt F .bf16)
      = shapeCast S4x4096x1024 (W (Proc.devRef .tc main_v5_2) : S16384x1024.Idx → Elt F .bf16) shapeCasts_S16384x1024_S4x4096x1024 := by
    after_results; rfl
  rw [e1, shapeCast_apply _ shapeCasts_S16384x1024_S4x4096x1024 (ix3 b t a) (ix2 (⟨4096 * b.val + t.val, by omega⟩ : Fin 16384) a) (by
    rw [Shape.rowMajor_val_three, Shape.rowMajor_val_two]
    show (4096 * b.val + t.val) * 1024 + a.val = (b.val * 4096 + t.val) * 1024 + a.val
    omega)]

theorem host1_of_ne (W : Valuation τ sig (Elt F)) (r : Ref sig .tc) (h6 : r ≠ main_v6) (h7 : r ≠ main_v7) (h8 : r ≠ main_v8) :
    StableHlo.after hostOps1 W (Proc.devRef .tc r) = W (Proc.devRef .tc r) := by
  simp only [after_cons, after_nil]
  rw [reshape_result_ne _ _ _ _ _ _ _ h8, reshape_result_ne _ _ _ _ _ _ _ h7, reshape_result_ne _ _ _ _ _ _ _ h6]

theorem host1_c (W : Valuation τ sig (Elt F)) : StableHlo.after hostOps1 W (Proc.devRef .tc main_c) = W (Proc.devRef .tc main_c) :=
  host1_of_ne W _ (by decide) (by decide) (by decide)

theorem host1_c_0 (W : Valuation τ sig (Elt F)) : StableHlo.after hostOps1 W (Proc.devRef .tc main_c_0) = W (Proc.devRef .tc main_c_0) :=
  host1_of_ne W _ (by decide) (by decide) (by decide)

theorem host1_arg0 (W : Valuation τ sig (Elt F)) : StableHlo.after hostOps1 W (Proc.devRef .tc main_arg0) = W (Proc.devRef .tc main_arg0) :=
  host1_of_ne W _ (by decide) (by decide) (by decide)

theorem host1_arg1 (W : Valuation τ sig (Elt F)) : StableHlo.after hostOps1 W (Proc.devRef .tc main_arg1) = W (Proc.devRef .tc main_arg1) :=
  host1_of_ne W _ (by decide) (by decide) (by decide)

theorem host1_arg2 (W : Valuation τ sig (Elt F)) : StableHlo.after hostOps1 W (Proc.devRef .tc main_arg2) = W (Proc.devRef .tc main_arg2) :=
  host1_of_ne W _ (by decide) (by decide) (by decide)

theorem host1_arg3 (W : Valuation τ sig (Elt F)) : StableHlo.after hostOps1 W (Proc.devRef .tc main_arg3) = W (Proc.devRef .tc main_arg3) :=
  host1_of_ne W _ (by decide) (by decide) (by decide)

end Cert.KernelIdeal.Hand

end
-- ==== Proof.EntryValues.lean ====
import proofs.«407511_j23811298689314_3_alg».proof.Proof.Spec
import proofs.«407511_j23811298689314_3_alg».proof.Proof.Coords
import proofs.«407511_j23811298689314_3_alg».proof.Proof.Fold
import proofs.«407511_j23811298689314_3_alg».proof.Proof.R0Value
import proofs.«407511_j23811298689314_3_alg».proof.Proof.HostGlue

-- at the attention launch the query, key and value arrays hold the projections of the arguments (the query's scaled by 1/32)

noncomputable section

namespace Cert.KernelIdeal.Hand

open Cert.KernelIdeal Cert.KernelIdeal.Gen Idealize.ShloMosaic Idealize.ShloMosaic.TcCoe Idealize.SL.Sem
open Idealize.ShloMosaic.StableHlo
open Idealize.ShloMosaic.ValueIdx

variable (m : (ℓ : Loc nD τ sig) → Buf (Elt Ideal) ℓ) (ρ : Dev nD → PrngReg)

theorem W2_q (c : Dev nD) :
    (W2 m ρ c (Proc.devRef .tc main_v5_0) : S16384x1024.Idx → EReal) = projQ (V1 m ρ c main_v1) (V1 m ρ c main_v4) :=
  (W2_arr m ρ c 2).trans (arr0_2 (V1 m ρ) c)
theorem W2_k (c : Dev nD) :
    (W2 m ρ c (Proc.devRef .tc main_v5_1) : S16384x1024.Idx → EReal) = projK (V1 m ρ c main_v1) (V1 m ρ c main_v4) :=
  (W2_arr m ρ c 3).trans (arr0_3 (V1 m ρ) c)
theorem W2_v (c : Dev nD) :
    (W2 m ρ c (Proc.devRef .tc main_v5_2) : S16384x1024.Idx → EReal) = projV (V1 m ρ c main_v1) (V1 m ρ c main_v4) :=
  (W2_arr m ρ c 4).trans (arr0_4 (V1 m ρ) c)

theorem V1_x (c : Dev nD) (b : Fin 4) (t : Fin 4096) (e : Fin 1024) :
    (V1 (F := Ideal) m ρ c main_v1 : S16384x1024.Idx → EReal) (ix2 (⟨4096 * b.val + t.val, by omega⟩ : Fin 16384) e)
      = Cert.Spec.x3 (m ((c : Thread nD τ).loc main_arg0)) b t e :=
  host0_v1 (W0 m ρ c) b t e
theorem V1_wq (c : Dev nD) (e : Fin 1024) (a : Fin 1024) :
    (V1 (F := Ideal) m ρ c main_v4 : S1024x3072.Idx → EReal) (ix2 e (⟨a.val, by omega⟩ : Fin 3072))
      = Cert.Spec.w2 (m ((c : Thread nD τ).loc main_arg1)) a e :=
  host0_v4_q (W0 m ρ c) e a
theorem V1_wk (c : Dev nD) (e : Fin 1024) (a : Fin 1024) :
    (V1 (F := Ideal) m ρ c main_v4 : S1024x3072.Idx → EReal) (ix2 e (⟨1024 + a.val, by omega⟩ : Fin 3072))
      = Cert.Spec.w2 (m ((c : Thread nD τ).loc main_arg2)) a e :=
  host0_v4_k (W0 m ρ c) e a
theorem V1_wv (c : Dev nD) (e : Fin 1024) (a : Fin 1024) :
    (V1 (F := Ideal) m ρ c main_v4 : S1024x3072.Idx → EReal) (ix2 e (⟨2048 + a.val, by omega⟩ : Fin 3072))
      = Cert.Spec.w2 (m ((c : Thread nD τ).loc main_arg3)) a e :=
  host0_v4_v (W0 m ρ c) e a

theorem entry_q (c : Dev nD) (b : Fin 4) (t : Fin 4096) (a : Fin 1024) :
    (V3 (F := Ideal) m ρ c main_v6 : S4x4096x1024.Idx → EReal) (ix3 b t a)
      = Cert.Spec.proj (Cert.Spec.x3 (m ((c : Thread nD τ).loc main_arg0))) (Cert.Spec.w2 (m ((c : Thread nD τ).loc main_arg1))) b t a
          * ((1 / 32 : ℝ) : EReal) := by
  show (StableHlo.after hostOps1 (W2 m ρ c) (Proc.devRef .tc main_v6) : S4x4096x1024.Idx → EReal) (ix3 b t a) = _
  rw [host1_v6, W2_q, projQ_apply]
  unfold Cert.Spec.proj
  refine congrArg (· * ((1 / 32 : ℝ) : EReal)) (Finset.sum_congr rfl fun e _ => ?_)
  rw [V1_x, V1_wq]

theorem entry_k (c : Dev nD) (b : Fin 4) (t : Fin 4096) (a : Fin 1024) :
    (V3 (F := Ideal) m ρ c main_v7 : S4x4096x1024.Idx → EReal) (ix3 b t a)
      = Cert.Spec.proj (Cert.Spec.x3 (m ((c : Thread nD τ).loc main_arg0))) (Cert.Spec.w2 (m ((c : Thread nD τ).loc main_arg2))) b t a := by
  show (StableHlo.after hostOps1 (W2 m ρ c) (Proc.devRef .tc main_v7) : S4x4096x1024.Idx → EReal) (ix3 b t a) = _
  rw [host1_v7, W2_k, projK_apply]
  unfold Cert.Spec.proj
  refine Finset.sum_congr (M := EReal) rfl fun e _ => ?_
  rw [V1_x, V1_wk]

theorem entry_v (c : Dev nD) (b : Fin 4) (t : Fin 4096) (a : Fin 1024) :
    (V3 (F := Ideal) m ρ c main_v8 : S4x4096x1024.Idx → EReal) (ix3 b t a)
      = Cert.Spec.proj (Cert.Spec.x3 (m ((c : Thread nD τ).loc main_arg0))) (Cert.Spec.w2 (m ((c : Thread nD τ).loc main_arg3))) b t a := by
  show (StableHlo.after hostOps1 (W2 m ρ c) (Proc.devRef .tc main_v8) : S4x4096x1024.Idx → EReal) (ix3 b t a) = _
  rw [host1_v8, W2_v, projV_apply]
  unfold Cert.Spec.proj
  refine Finset.sum_congr (M := EReal) rfl fun e _ => ?_
  rw [V1_x, V1_wv]

end Cert.KernelIdeal.Hand

end
-- ==== Proof.PreFinite.lean ====
import proofs.«407511_j23811298689314_3_alg».proof.Proof.Coords
import proofs.«407511_j23811298689314_3_alg».proof.Pre_finite_inputs
import Idealize.ShloMosaic.Lib.ReduceAll

-- the precondition says every entry of the four argument arrays is a real number

noncomputable section

namespace Cert.Proof.PreFinite

open Idealize.ShloMosaic Cert.Spec Cert.Pre_finite_inputs

instance : Subsingleton S_.Idx := ⟨fun a b => funext fun d => d.elim0⟩

theorem inf_word : Ideal.ofBits .f32 0x7F800000#32 = ⊤ := by simp [Ideal.ofBits, Ideal.ieee]

theorem isReal_of_abs_lt_top (v : EReal) (h : Ideal.cmp .olt (max v (-v)) ⊤ = 1#1) : IsReal v := by
  induction v using EReal.rec with
  | bot => simp [Ideal.cmp] at h
  | coe r => exact ⟨r, rfl⟩
  | top => simp [Ideal.cmp] at h

theorem isReal_of_test (v : Ideal .f32)
    (h : FloatOps.cmpf .olt (FloatOps.hostAbsf v) (FloatOps.ofBits (F := Ideal) .f32 0x7F800000#32) = 1#1) :
    IsReal v := by
  change Ideal.cmp .olt (max (v : EReal) (-(v : EReal))) (Ideal.ofBits .f32 0x7F800000#32) = 1#1 at h
  rw [inf_word] at h
  exact isReal_of_abs_lt_top v h

variable [Facts]

theorem finite_of_fn (a0 : FVec Ideal S4x4096x1024 .f32) (a1 a2 a3 : FVec Ideal S1024x1024 .f32)
    (h : fn (F := Ideal) a0 a1 a2 a3 = fun _ => 1#1) :
    Cert.Spec.Finite (x3 a0) (w2 a1) (w2 a2) (w2 a3) := by
  have h0 := congrFun h ValueIdx.ix0
  dsimp only [fn, fn_part1, andi] at h0
  obtain ⟨h012, h3⟩ := IntOp.andi_eq_one.1 h0
  obtain ⟨h01, h2⟩ := IntOp.andi_eq_one.1 h012
  obtain ⟨h0', h1⟩ := IntOp.andi_eq_one.1 h01
  refine ⟨fun b t e => ?_, fun a e => ?_, fun a e => ?_, fun a e => ?_⟩
  · exact isReal_of_test _ (Host.reduce_andi_all _ _ _ _ _ h0' (ValueIdx.ix3 b t e))
  · exact isReal_of_test _ (Host.reduce_andi_all _ _ _ _ _ h1 (ValueIdx.ix2 a e))
  · exact isReal_of_test _ (Host.reduce_andi_all _ _ _ _ _ h2 (ValueIdx.ix2 a e))
  · exact isReal_of_test _ (Host.reduce_andi_all _ _ _ _ _ h3 (ValueIdx.ix2 a e))

end Cert.Proof.PreFinite

end
-- ==== Proof.GRefAlg.lean ====
import proofs.«407511_j23811298689314_3_alg».proof.Proof.Spec

-- `G = GRef` for finite inputs: √1024 = 32, a finite sum scaled by 1/32 is the sum divided by 32, and averaging normalised weights is dividing the average once by the positive sum

noncomputable section

namespace Cert.Spec

open Idealize.ShloMosaic

theorem coe_finsum {ι : Type} (s : Finset ι) (f : ι → ℝ) :
    ((∑ i ∈ s, f i : ℝ) : EReal) = ∑ i ∈ s, ((f i : ℝ) : EReal) := by
  classical
  refine Finset.induction_on s ?_ ?_
  · rw [Finset.sum_empty, Finset.sum_empty, EReal.coe_zero]
  · intro i s hi ih
    rw [Finset.sum_insert hi, Finset.sum_insert hi, EReal.coe_add, ih]

theorem proj_real {x : X3} {w : W2} (hx : ∀ b t e, IsReal (x b t e)) (hw : ∀ a e, IsReal (w a e)) :
    ∃ P : Fin 4 → Fin 4096 → Fin 1024 → ℝ, ∀ b t a, proj x w b t a = ((P b t a : ℝ) : EReal) := by
  choose xr hxr using hx
  choose wr hwr using hw
  refine ⟨fun b t a => ∑ e : Fin 1024, xr b t e * wr a e, fun b t a => ?_⟩
  rw [coe_finsum]
  unfold proj
  refine Finset.sum_congr rfl fun e _ => ?_
  rw [hxr, hwr, EReal.coe_mul]

theorem sqrt_1024 : Ideal.sqrt ((1024 : ℝ) : EReal) = ((32 : ℝ) : EReal) := by
  rw [Ideal.sqrt_coe, if_neg (by norm_num)]
  congr 1
  rw [show (1024 : ℝ) = 32 ^ 2 by norm_num]
  exact Real.sqrt_sq (by norm_num)

section
variable {x : X3} {wq wk wv : W2} {Q K : Fin 4 → Fin 4096 → Fin 1024 → ℝ}

theorem score_coe (hQ : ∀ b t a, proj x wq b t a = ((Q b t a : ℝ) : EReal))
    (hK : ∀ b t a, proj x wk b t a = ((K b t a : ℝ) : EReal)) (b : Fin 4) (q k : Fin 4096) :
    score x wq wk b q k = ((∑ a : Fin 1024, Q b q a * (1 / 32) * K b k a : ℝ) : EReal) := by
  rw [coe_finsum]
  unfold score
  refine Finset.sum_congr rfl fun a _ => ?_
  rw [hQ, hK, EReal.coe_mul, EReal.coe_mul]

theorem scoreRef_coe (hQ : ∀ b t a, proj x wq b t a = ((Q b t a : ℝ) : EReal))
    (hK : ∀ b t a, proj x wk b t a = ((K b t a : ℝ) : EReal)) (b : Fin 4) (q k : Fin 4096) :
    scoreRef x wq wk b q k = ((∑ a : Fin 1024, Q b q a * (1 / 32) * K b k a : ℝ) : EReal) := by
  have hs : (∑ a : Fin 1024, proj x wq b q a * proj x wk b k a)
      = ((∑ a : Fin 1024, Q b q a * K b k a : ℝ) : EReal) := by
    rw [coe_finsum]
    refine Finset.sum_congr rfl fun a _ => ?_
    rw [hQ, hK, EReal.coe_mul]
  unfold scoreRef
  rw [sqrt_1024, Ideal.div_coe (by norm_num), hs, ← EReal.coe_mul, Finset.sum_mul]
  congr 1
  refine Finset.sum_congr rfl fun a _ => ?_
  ring

end

section
variable {x : X3} {wq wk wv : W2}

theorem scoreRef_eq (hF : Finite x wq wk wv) : scoreRef x wq wk = score x wq wk := by
  obtain ⟨Q, hQ⟩ := proj_real hF.x hF.wq
  obtain ⟨K, hK⟩ := proj_real hF.x hF.wk
  funext b q k
  rw [scoreRef_coe hQ hK, score_coe hQ hK]

theorem mscoreRef_eq (hF : Finite x wq wk wv) : mscoreRef x wq wk = mscore x wq wk := by
  funext b q k
  unfold mscoreRef mscore
  rw [scoreRef_eq hF]

theorem rowMaxRef_eq (hF : Finite x wq wk wv) : rowMaxRef x wq wk = rowMax x wq wk := by
  funext b q
  unfold rowMaxRef rowMax
  rw [mscoreRef_eq hF]

theorem wgtRef_eq (hF : Finite x wq wk wv) : wgtRef x wq wk = wgt x wq wk := by
  funext b q k
  unfold wgtRef wgt
  rw [mscoreRef_eq hF, rowMaxRef_eq hF]

theorem rowSumRef_eq (hF : Finite x wq wk wv) : rowSumRef x wq wk = rowSum x wq wk := by
  funext b q
  unfold rowSumRef rowSum
  rw [wgtRef_eq hF]

theorem row_real (hF : Finite x wq wk wv) (b : Fin 4) (q : Fin 4096) :
    ∃ (w : Fin 4096 → ℝ) (L : ℝ), (∀ k, wgt x wq wk b q k = ((w k : ℝ) : EReal))
      ∧ rowSum x wq wk b q = ((L : ℝ) : EReal) ∧ L ≠ 0 := by
  obtain ⟨Q, hQ⟩ := proj_real hF.x hF.wq
  obtain ⟨K, hK⟩ := proj_real hF.x hF.wk
  obtain ⟨S, hS⟩ : ∃ S : Fin 4096 → ℝ, ∀ k, score x wq wk b q k = ((S k : ℝ) : EReal) :=
    ⟨_, score_coe hQ hK b q⟩

  have hlt : ∀ k, mscore x wq wk b q k < ⊤ := by
    intro k
    unfold mscore
    by_cases h : k ≤ q
    · rw [if_pos h, hS]; exact EReal.coe_lt_top _
    · rw [if_neg h]; exact bot_lt_top
  have htop : rowMax x wq wk b q ≠ ⊤ :=
    ((Finset.sup_lt_iff (bot_lt_top)).2 fun k _ => hlt k).ne
  have hqq : mscore x wq wk b q q = ((S q : ℝ) : EReal) := by
    unfold mscore; rw [if_pos le_rfl, hS]
  have hbot : rowMax x wq wk b q ≠ ⊥ := by
    have hle : mscore x wq wk b q q ≤ rowMax x wq wk b q := Finset.le_sup (Finset.mem_univ q)
    rw [hqq] at hle
    exact (lt_of_lt_of_le (EReal.bot_lt_coe _) hle).ne'
  obtain ⟨M, hM⟩ : ∃ M : ℝ, rowMax x wq wk b q = ((M : ℝ) : EReal) :=
    ⟨_, (EReal.coe_toReal htop hbot).symm⟩

  have hw : ∀ k, wgt x wq wk b q k = (((if k ≤ q then Real.exp (S k - M) else 0 : ℝ)) : EReal) := by
    intro k
    unfold wgt mscore
    rw [hM]
    by_cases h : k ≤ q
    · rw [if_pos h, if_pos h, hS, ← EReal.coe_sub, Ideal.exp_coe]
    · rw [if_neg h, if_neg h, EReal.bot_sub, Ideal.exp_bot, EReal.coe_zero]
  refine ⟨fun k => if k ≤ q then Real.exp (S k - M) else 0,
    ∑ k : Fin 4096, (if k ≤ q then Real.exp (S k - M) else 0), hw, ?_, ?_⟩
  · unfold rowSum
    rw [coe_finsum]
    exact Finset.sum_congr rfl fun k _ => hw k
  · refine (Finset.sum_pos' (fun k _ => ?_) ⟨q, Finset.mem_univ q, ?_⟩).ne'
    · by_cases h : k ≤ q
      · rw [if_pos h]; exact (Real.exp_pos _).le
      · rw [if_neg h]
    · rw [if_pos le_rfl]; exact Real.exp_pos _

theorem G_eq_GRef (hF : Finite x wq wk wv) (b : Fin 4) (q : Fin 4096) (a : Fin 1024) :
    GRef x wq wk wv b q a = G x wq wk wv b q a := by
  obtain ⟨V, hV⟩ := proj_real hF.x hF.wv
  obtain ⟨w, L, hw, hL, hL0⟩ := row_real hF b q
  have h1 : (∑ k : Fin 4096, Ideal.div (wgt x wq wk b q k) (rowSum x wq wk b q) * proj x wv b k a)
      = ((∑ k : Fin 4096, w k * (1 / L) * V b k a : ℝ) : EReal) := by
    rw [coe_finsum]
    refine Finset.sum_congr rfl fun k _ => ?_
    rw [hL, Ideal.div_coe hL0, hw, hV, EReal.coe_mul, EReal.coe_mul]
  have h2 : rowAcc x wq wk wv b q a = ((∑ k : Fin 4096, w k * V b k a : ℝ) : EReal) := by
    unfold rowAcc
    rw [coe_finsum]
    refine Finset.sum_congr rfl fun k _ => ?_
    rw [hw, hV, EReal.coe_mul]
  unfold GRef G
  rw [wgtRef_eq hF, rowSumRef_eq hF, h1, h2, hL, Ideal.div_coe hL0, ← EReal.coe_mul, Finset.sum_mul]
  congr 2
  refine Finset.sum_congr rfl fun k _ => ?_
  ring

end

end Cert.Spec

end
-- ==== Proof.RefIsSpec.lean ====
import proofs.«407511_j23811298689314_3_alg».proof.Proof.Spec
import proofs.«407511_j23811298689314_3_alg».proof.Proof.Coords
import proofs.«407511_j23811298689314_3_alg».proof.Proof.Gen.ReferenceIdeal.Run
import proofs.«407511_j23811298689314_3_alg».proof.Proof.Gen.ReferenceIdeal.Read
import Idealize.ShloMosaic.Lib.ValueIdx
import Idealize.ShloMosaic.Lib.ValueIdxCoords
import Idealize.ShloMosaic.Lib.Affine
import Idealize.ShloMosaic.PureOps.Ideal.Laws
import Idealize.ShloMosaic.PureOps.Reduce

-- the reference's result, read one host operation at a time at an index, is `GRef` of the arguments

noncomputable section

namespace Cert.ReferenceIdeal.RefValue

open Idealize.ShloMosaic Idealize.ShloMosaic.ValueIdx Cert.ReferenceIdeal Cert.ReferenceIdeal.Gen
  Cert.ReferenceIdeal.Read Cert.Spec

theorem lit_1024 : Ideal.ofBits .f32 0x44800000#32 = ((1024 : ℝ) : EReal) := by
  simp [Ideal.ofBits, Ideal.ieee, -EReal.coe_mul]; norm_num
theorem lit_10000 : Ideal.ofBits .f32 0x461C4000#32 = ((10000 : ℝ) : EReal) := by
  simp [Ideal.ofBits, Ideal.ieee, -EReal.coe_mul]; norm_num
theorem lit_bot : Ideal.ofBits .f32 0xFF800000#32 = (⊥ : EReal) := by
  simp [Ideal.ofBits, Ideal.ieee]

theorem lidx_v0 (b : Fin 4) (t : Fin 4096) (a k : Fin 1024) : lidx_main_v0 (ix3 b t a) k = ix3 b t k := by
  funext c; match c with | ⟨0, _⟩ => rfl | ⟨1, _⟩ => rfl | ⟨2, _⟩ => rfl
theorem ridx_v0 (b : Fin 4) (t : Fin 4096) (a k : Fin 1024) : ridx_main_v0 (ix3 b t a) k = ix2 a k := by
  funext c; match c with | ⟨0, _⟩ => rfl | ⟨1, _⟩ => rfl
theorem lidx_v1 (b : Fin 4) (t : Fin 4096) (a k : Fin 1024) : lidx_main_v1 (ix3 b t a) k = ix3 b t k := by
  funext c; match c with | ⟨0, _⟩ => rfl | ⟨1, _⟩ => rfl | ⟨2, _⟩ => rfl
theorem ridx_v1 (b : Fin 4) (t : Fin 4096) (a k : Fin 1024) : ridx_main_v1 (ix3 b t a) k = ix2 a k := by
  funext c; match c with | ⟨0, _⟩ => rfl | ⟨1, _⟩ => rfl
theorem lidx_v2 (b : Fin 4) (t : Fin 4096) (a k : Fin 1024) : lidx_main_v2 (ix3 b t a) k = ix3 b t k := by
  funext c; match c with | ⟨0, _⟩ => rfl | ⟨1, _⟩ => rfl | ⟨2, _⟩ => rfl
theorem ridx_v2 (b : Fin 4) (t : Fin 4096) (a k : Fin 1024) : ridx_main_v2 (ix3 b t a) k = ix2 a k := by
  funext c; match c with | ⟨0, _⟩ => rfl | ⟨1, _⟩ => rfl
theorem lidx_v3 (b : Fin 4) (q k : Fin 4096) (a : Fin 1024) : lidx_main_v3 (ix3 b q k) a = ix3 b q a := by
  funext c; match c with | ⟨0, _⟩ => rfl | ⟨1, _⟩ => rfl | ⟨2, _⟩ => rfl
theorem ridx_v3 (b : Fin 4) (q k : Fin 4096) (a : Fin 1024) : ridx_main_v3 (ix3 b q k) a = ix3 b k a := by
  funext c; match c with | ⟨0, _⟩ => rfl | ⟨1, _⟩ => rfl | ⟨2, _⟩ => rfl

variable (a0 : FVec Ideal S4x4096x1024 .f32) (a1 a2 a3 : FVec Ideal S1024x1024 .f32)

theorem v0_at (b : Fin 4) (t : Fin 4096) (a : Fin 1024) :
    val_main_v0 (F := Ideal) a0 a1 (ix3 b t a) = proj (x3 a0) (w2 a1) b t a := by
  rw [val_main_v0_apply]
  exact Finset.sum_congr rfl fun k _ => by rw [lidx_v0, ridx_v0]; rfl
theorem v1_at (b : Fin 4) (t : Fin 4096) (a : Fin 1024) :
    val_main_v1 (F := Ideal) a0 a2 (ix3 b t a) = proj (x3 a0) (w2 a2) b t a := by
  rw [val_main_v1_apply]
  exact Finset.sum_congr rfl fun k _ => by rw [lidx_v1, ridx_v1]; rfl
theorem v2_at (b : Fin 4) (t : Fin 4096) (a : Fin 1024) :
    val_main_v2 (F := Ideal) a0 a3 (ix3 b t a) = proj (x3 a0) (w2 a3) b t a := by
  rw [val_main_v2_apply]
  exact Finset.sum_congr rfl fun k _ => by rw [lidx_v2, ridx_v2]; rfl

theorem v3_at (b : Fin 4) (q k : Fin 4096) :
    val_main_v3 (F := Ideal) a0 a1 a2 (ix3 b q k)
      = ∑ a : Fin 1024, proj (x3 a0) (w2 a1) b q a * proj (x3 a0) (w2 a2) b k a := by
  rw [val_main_v3_apply]
  exact Finset.sum_congr rfl fun a _ => by rw [lidx_v3, ridx_v3, v0_at, v1_at]

theorem v5_at (i : S4x4096x4096.Idx) : val_main_v5 (F := Ideal) i = Ideal.sqrt ((1024 : ℝ) : EReal) := by
  rw [val_main_v5_apply, val_main_v4_apply, val_main_cst_apply]
  show Ideal.sqrt (Ideal.ofBits .f32 0x44800000#32) = _
  rw [lit_1024]

theorem v6_at (b : Fin 4) (q k : Fin 4096) :
    val_main_v6 (F := Ideal) a0 a1 a2 (ix3 b q k) = scoreRef (x3 a0) (w2 a1) (w2 a2) b q k := by
  rw [val_main_v6_apply, v3_at, v5_at]; rfl

theorem toInt_ofNat32 (n : Nat) (h : n < 4096) : (BitVec.ofNat 32 n).toInt = (n : Int) := by
  rw [BitVec.toInt_ofNat']
  exact Int.bmod_eq_of_le (by omega) (by omega)

theorem v8_iff (q k : Fin 4096) : val_main_v8 (F := Ideal) (ix2 q k) = 1#1 ↔ k ≤ q := by
  rw [val_main_v8_apply, val_main_v7_apply, val_main_c_apply, val_main_call0_v5_apply, val_main_call0_c_0_apply,
    val_main_call0_v4_apply, val_main_call0_v2_apply, val_main_call0_v0_apply, val_main_call0_v1_apply,
    val_main_call0_c_apply, val_main_call0_v3_apply]
  show Scalar.select (IntOp.cmpi .sge (IntOp.addi (BitVec.ofNat 32 q.val) 0#32) (BitVec.ofNat 32 k.val)) 1#1 0#1 = 1#1 ↔ k ≤ q
  have hadd : IntOp.addi (BitVec.ofNat 32 q.val) 0#32 = BitVec.ofNat 32 q.val := BitVec.add_zero _
  rw [hadd]
  by_cases hc : IntOp.cmpi .sge (BitVec.ofNat 32 q.val) (BitVec.ofNat 32 k.val) = 1#1
  · rw [hc, select_one]
    have := IntOp.cmpi_sge.mp hc
    rw [toInt_ofNat32 _ q.isLt, toInt_ofNat32 _ k.isLt] at this
    exact ⟨fun _ => Fin.le_def.mpr (by omega), fun _ => rfl⟩
  · rw [eq_zero_of_ne_one hc, select_zero]
    have hn : ¬ (BitVec.ofNat 32 k.val).toInt ≤ (BitVec.ofNat 32 q.val).toInt := fun h => hc (IntOp.cmpi_sge.mpr h)
    rw [toInt_ofNat32 _ q.isLt, toInt_ofNat32 _ k.isLt] at hn
    exact ⟨fun h => absurd h (by decide), fun h => absurd (Fin.le_def.mp h) (by omega)⟩

theorem idx_call1_v1 (b : Fin 4) (q k : Fin 4096) : idx_main_call1_v1 (ix3 b q k) = ix2 q k := by
  funext c; match c with | ⟨0, _⟩ => rfl | ⟨1, _⟩ => rfl

theorem v9_at (b : Fin 4) (q k : Fin 4096) :
    val_main_v9 (F := Ideal) a0 a1 a2 (ix3 b q k) = mscoreRef (x3 a0) (w2 a1) (w2 a2) b q k := by
  rw [val_main_v9_apply, val_main_call1_v1_apply, idx_call1_v1, v6_at, val_main_call1_v2_apply,
    val_main_call1_v0_apply, val_main_cst_0_apply]
  show Scalar.select _ _ (Ideal.ofBits .f32 0xFF800000#32) = _
  rw [lit_bot]
  unfold mscoreRef
  by_cases h : k ≤ q
  · rw [(v8_iff q k).mpr h, select_one, if_pos h]
  · rw [eq_zero_of_ne_one (fun e => h ((v8_iff q k).mp e)), select_zero, if_neg h]

theorem reduces_d2 : S4x4096x4096.Reduces [2] S4x4096 := by decide

theorem lift_d2 (b : Fin 4) (q : Fin 4096) (k : Fin 4096) :
    reduces_d2.lift (ix2 b q) k = ix3 b q k := by
  funext c; apply Fin.ext
  match c with | ⟨0, _⟩ => rfl | ⟨1, _⟩ => rfl | ⟨2, _⟩ => rfl

theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

theorem v10_at (b : Fin 4) (q : Fin 4096) :
    val_main_v10 (F := Ideal) a0 a1 a2 (ix2 b q) = rowMaxRef (x3 a0) (w2 a1) (w2 a2) b q := by
  unfold val_main_v10
  rw [Host.reduce_eq_fold_single (FloatOps.maximumf (F := Ideal) (φ := .f32)) _ _ reducesTo_S4x4096x4096_S4x4096_d2
    reduces_d2 h_S_, val_main_cst_1_apply]
  show (Finset.univ : Finset (Fin 4096)).fold (max : EReal → EReal → EReal) (Ideal.ofBits .f32 0xFF800000#32)
    (fun k : Fin 4096 => val_main_v9 (F := Ideal) a0 a1 a2 (reduces_d2.lift (ix2 b q) k)) = _
  rw [lit_bot, fold_max_bot_eq_sup]
  unfold rowMaxRef
  exact congrArg (Finset.univ.sup) (funext fun k => by rw [lift_d2, v9_at])

theorem v12_at (b : Fin 4) (q : Fin 4096) :
    val_main_v12 (F := Ideal) a0 a1 a2 (ix2 b q) = rowMaxRef (x3 a0) (w2 a1) (w2 a2) b q := by
  rw [val_main_v12_apply, val_main_v11_apply, val_main_cst_2_apply, v10_at]
  show max (Ideal.ofBits .f32 0xFF800000#32) _ = _
  rw [lit_bot]
  exact max_bot_left _

theorem idx_v13_v14 (b : Fin 4) (q k : Fin 4096) : idx_main_v13 (idx_main_v14 (ix3 b q k)) = ix2 b q := by
  funext c; match c with | ⟨0, _⟩ => rfl | ⟨1, _⟩ => rfl

theorem v14_at (b : Fin 4) (q k : Fin 4096) :
    val_main_v14 (F := Ideal) a0 a1 a2 (ix3 b q k) = rowMaxRef (x3 a0) (w2 a1) (w2 a2) b q := by
  rw [val_main_v14_apply, val_main_v13_apply, idx_v13_v14, v12_at]

theorem v16_at (b : Fin 4) (q k : Fin 4096) :
    val_main_v16 (F := Ideal) a0 a1 a2 (ix3 b q k) = wgtRef (x3 a0) (w2 a1) (w2 a2) b q k := by
  rw [val_main_v16_apply, val_main_v15_apply, v9_at, v14_at]; rfl

theorem idx_v17 (b : Fin 4) (q k : Fin 4096) : idx_main_v17 (ix2 b q) k = ix3 b q k := by
  funext c; match c with | ⟨0, _⟩ => rfl | ⟨1, _⟩ => rfl | ⟨2, _⟩ => rfl

theorem v17_at (b : Fin 4) (q : Fin 4096) :
    val_main_v17 (F := Ideal) a0 a1 a2 (ix2 b q) = rowSumRef (x3 a0) (w2 a1) (w2 a2) b q := by
  rw [val_main_v17_apply, val_main_cst_3_apply]
  show Ideal.ofBits .f32 0x00000000#32 + _ = _
  rw [Ideal.ofBits_zero_f32, zero_add]
  exact Finset.sum_congr rfl fun k _ => by rw [idx_v17, v16_at]

theorem idx_v18_v19 (b : Fin 4) (q k : Fin 4096) : idx_main_v18 (idx_main_v19 (ix3 b q k)) = ix2 b q := by
  funext c; match c with | ⟨0, _⟩ => rfl | ⟨1, _⟩ => rfl

theorem v20_at (b : Fin 4) (q k : Fin 4096) :
    val_main_v20 (F := Ideal) a0 a1 a2 (ix3 b q k)
      = Ideal.div (wgtRef (x3 a0) (w2 a1) (w2 a2) b q k) (rowSumRef (x3 a0) (w2 a1) (w2 a2) b q) := by
  rw [val_main_v20_apply, v16_at, val_main_v19_apply, val_main_v18_apply, idx_v18_v19, v17_at]; rfl

theorem lidx_v21 (b : Fin 4) (q : Fin 4096) (a : Fin 1024) (k : Fin 4096) :
    lidx_main_v21 (ix3 b q a) k = ix3 b q k := by
  funext c; match c with | ⟨0, _⟩ => rfl | ⟨1, _⟩ => rfl | ⟨2, _⟩ => rfl
theorem ridx_v21 (b : Fin 4) (q : Fin 4096) (a : Fin 1024) (k : Fin 4096) :
    ridx_main_v21 (ix3 b q a) k = ix3 b k a := by
  funext c; match c with | ⟨0, _⟩ => rfl | ⟨1, _⟩ => rfl | ⟨2, _⟩ => rfl

theorem v21_at (b : Fin 4) (q : Fin 4096) (a : Fin 1024) :
    val_main_v21 (F := Ideal) a0 a1 a2 a3 (ix3 b q a)
      = ∑ k : Fin 4096, Ideal.div (wgtRef (x3 a0) (w2 a1) (w2 a2) b q k) (rowSumRef (x3 a0) (w2 a1) (w2 a2) b q)
          * proj (x3 a0) (w2 a3) b k a := by
  rw [val_main_v21_apply]
  exact Finset.sum_congr rfl fun k _ => by rw [lidx_v21, ridx_v21, v20_at, v2_at]

theorem v22_at (b : Fin 4) (q : Fin 4096) (a : Fin 1024) :
    val_main_v22 (F := Ideal) a0 a1 a2 a3 (ix3 b q a) = GRef (x3 a0) (w2 a1) (w2 a2) (w2 a3) b q a := by
  rw [val_main_v22_apply, val_main_call2_v2_apply, val_main_call2_v1_apply, v21_at, val_main_call2_v0_apply,
    val_main_call2_cst_apply, val_main_call2_v3_apply, val_main_call2_cst_0_apply]
  show Ideal.div (Ideal.liftRound Ideal.roundHalfEven (_ * Ideal.ofBits .f32 0x461C4000#32))
    (Ideal.ofBits .f32 0x461C4000#32) = _
  rw [lit_10000]; rfl

theorem ref_eq (a0 : FVec Ideal S4x4096x1024 .f32) (a1 a2 a3 : FVec Ideal S1024x1024 .f32) :
    val_main_v22 (F := Ideal) a0 a1 a2 a3
      = fun i => GRef (x3 a0) (w2 a1) (w2 a2) (w2 a3) (i 0) (i 1) (i 2) := by
  funext i
  rw [eq_ix3 i]
  exact v22_at a0 a1 a2 a3 (i 0) (i 1) (i 2)

open Idealize.ShloMosaic.TcCoe Idealize.SL.Sem in

theorem res_eq (m : (ℓ : Loc nD τ sig) → Buf (Elt Ideal) ℓ) (c : Dev nD) :
    Cert.ReferenceIdeal.Value.res_out0 m c
      = fun i => GRef (x3 (m ((c.tc : Thread nD τ).loc main_arg0))) (w2 (m ((c.tc : Thread nD τ).loc main_arg1)))
          (w2 (m ((c.tc : Thread nD τ).loc main_arg2))) (w2 (m ((c.tc : Thread nD τ).loc main_arg3))) (i 0) (i 1) (i 2) :=
  (val_main_v22_eq m c).trans (ref_eq _ _ _ _)

end Cert.ReferenceIdeal.RefValue

end
-- ==== Proof.lean ====
/- Causal single-head attention. The reference projects to queries, keys and values, scores each query against each key,
   divides by √1024 = 32, masks later keys with -∞, takes each row's softmax, averages the value rows and rounds.
   The kernel scales the query projection by 1/32 in a first launch; its second launch walks (query block, key block) pairs,
   key blocks 0 … qi in order, keeping per row a running maximum, a running sum of exponentials and a running weighted sum,
   rescaled by exp (old maximum - new maximum); after the diagonal block it divides and rounds.
   With finite inputs the running triple after blocks 0 … j is the maximum, the exponential sum and the weighted sum over
   exactly those positions (exp (a - b) · exp (c - a) = exp (c - b); a masked score weighs exp (-∞) = 0), and after the
   diagonal block those are all unmasked keys, so the quotient is the softmax average. -/
import proofs.«407511_j23811298689314_3_alg».proof.Defs
import proofs.«407511_j23811298689314_3_alg».proof.Proof.Gen.Kernel
import proofs.«407511_j23811298689314_3_alg».proof.Proof.Gen.Kernel.Skeleton
import proofs.«407511_j23811298689314_3_alg».proof.Proof.Gen.Kernel.Launch
import proofs.«407511_j23811298689314_3_alg».proof.Proof.Gen.Kernel.Regions
import proofs.«407511_j23811298689314_3_alg».proof.Proof.Gen.Kernel.Points
import proofs.«407511_j23811298689314_3_alg».proof.Proof.Gen.KernelIdeal
import proofs.«407511_j23811298689314_3_alg».proof.Proof.Gen.KernelIdeal.Skeleton
import proofs.«407511_j23811298689314_3_alg».proof.Proof.Gen.KernelIdeal.Launch
import proofs.«407511_j23811298689314_3_alg».proof.Proof.Gen.KernelIdeal.Regions
import proofs.«407511_j23811298689314_3_alg».proof.Proof.Gen.KernelIdeal.Points
import proofs.«407511_j23811298689314_3_alg».proof.Proof.Gen.ReferenceIdeal
import proofs.«407511_j23811298689314_3_alg».proof.Proof.Gen.Pre_finite_inputs
import proofs.«407511_j23811298689314_3_alg».proof.Proof.Gen.ReferenceIdeal.Run
import proofs.«407511_j23811298689314_3_alg».proof.Proof.Gen.ReferenceIdeal.Read
import proofs.«407511_j23811298689314_3_alg».proof.Proof.LaunchIdeal
import proofs.«407511_j23811298689314_3_alg».proof.Proof.LaunchBits
import proofs.«407511_j23811298689314_3_alg».proof.Proof.R1Value
import proofs.«407511_j23811298689314_3_alg».proof.Proof.EntryValues
import proofs.«407511_j23811298689314_3_alg».proof.Proof.PreFinite
import proofs.«407511_j23811298689314_3_alg».proof.Proof.GRefAlg
import proofs.«407511_j23811298689314_3_alg».proof.Proof.RefIsSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal :=
  IdealRules.named_const.statement Cert.KernelIdeal.κ "neg_big" .f32 0xFF333332#32 ⊥ rfl

theorem algebraic : Cert.algebraic_KernelIdeal_ReferenceIdeal := by
  intro m ρ m' ρ' hpre hagree
  have hF : ∀ c : Dev Cert.KernelIdeal.nD, Cert.Spec.Finite
      (Cert.Spec.x3 (m ((c.tc : Thread Cert.KernelIdeal.nD Cert.KernelIdeal.τ).loc Cert.KernelIdeal.main_arg0)))
      (Cert.Spec.w2 (m ((c.tc : Thread Cert.KernelIdeal.nD Cert.KernelIdeal.τ).loc Cert.KernelIdeal.main_arg1)))
      (Cert.Spec.w2 (m ((c.tc : Thread Cert.KernelIdeal.nD Cert.KernelIdeal.τ).loc Cert.KernelIdeal.main_arg2)))
      (Cert.Spec.w2 (m ((c.tc : Thread Cert.KernelIdeal.nD Cert.KernelIdeal.τ).loc Cert.KernelIdeal.main_arg3))) :=
    fun c => Cert.Proof.PreFinite.finite_of_fn _ _ _ _ (hpre c)
  refine ⟨fun c i => Cert.Spec.G
      (Cert.Spec.x3 (m ((c.tc : Thread Cert.KernelIdeal.nD Cert.KernelIdeal.τ).loc Cert.KernelIdeal.main_arg0)))
      (Cert.Spec.w2 (m ((c.tc : Thread Cert.KernelIdeal.nD Cert.KernelIdeal.τ).loc Cert.KernelIdeal.main_arg1)))
      (Cert.Spec.w2 (m ((c.tc : Thread Cert.KernelIdeal.nD Cert.KernelIdeal.τ).loc Cert.KernelIdeal.main_arg2)))
      (Cert.Spec.w2 (m ((c.tc : Thread Cert.KernelIdeal.nD Cert.KernelIdeal.τ).loc Cert.KernelIdeal.main_arg3))) (i 0) (i 1) (i 2), ?_, ?_⟩
  · exact (θ_run Cert.KernelIdeal.defs _ _).mono (fun r h c =>
      ⟨((h c).1).trans (Cert.KernelIdeal.Hand.arr1_3 (Cert.KernelIdeal.Hand.V3 (F := Ideal) m ρ) c _ _ _ _ (hF c)
          (Cert.KernelIdeal.Hand.entry_q m ρ c) (Cert.KernelIdeal.Hand.entry_k m ρ c) (Cert.KernelIdeal.Hand.entry_v m ρ c)), (h c).2⟩)
      (Cert.KernelIdeal.Hand.run_main (F := Ideal) m ρ)
  · refine (θ_run Cert.ReferenceIdeal.defs _ _).mono (fun r h c => ⟨(h c).1.trans ?_, (h c).2⟩)
      (Cert.ReferenceIdeal.Value.run (F := Ideal) m' ρ')
    rw [show Cert.ReferenceIdeal.Value.res_main_v22 m' c = Cert.ReferenceIdeal.Value.res_out0 m' c from rfl,
      Cert.ReferenceIdeal.RefValue.res_eq, (hagree c).1, (hagree c).2.1, (hagree c).2.2.1, (hagree c).2.2.2]
    funext i
    exact Cert.Spec.G_eq_GRef (hF c) _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
